-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg2 : IVec S2x800000 32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_c_30 : IVec S_ 32 := constantI S_ 32 0#32
  let main_v79 : IVec S2x800000 32 := broadcastInDim S2x800000 ![] bcast_S_S2x800000 main_c_30
  let main_v80 : IVec S2x800000 1 := cmpi .sge main_arg2 main_v79
  let main_c_31 : IVec S_ 32 := constantI S_ 32 50000#32
  let main_v81 : IVec S2x800000 32 := broadcastInDim S2x800000 ![] bcast_S_S2x800000 main_c_31
  let main_v82 : IVec S2x800000 1 := cmpi .slt main_arg2 main_v81
  let main_v83 : IVec S2x800000 1 := andi main_v80 main_v82
  let main_c_32 : IVec S_ 1 := constantI S_ 1 1#1
  let main_v84 : IVec S_ 1 := (fun x v => Host.reduce IntOp.andi x v reducesTo_S2x800000_S_d0_1 h_S_) main_v83 main_c_32
  fn_part5 (F := F) main_v78 main_v84

def fn_part3 {F : FTy → Type} [FloatOps F] (main_arg2 : IVec S2x800000 32) (main_arg12 : FVec F S128 .f32) (main_arg13 : FVec F S128 .f32) (main_arg14 : FVec F S128 .f32) (main_arg15 : FVec F S128 .f32) (main_arg16 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_v63 main_v67

def fn_part2 {F : FTy → Type} [FloatOps F] (main_arg2 : IVec S2x800000 32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_arg15 main_arg16 main_v48 main_v49 main_v50

def fn_part1 {F : FTy → Type} [FloatOps F] (main_arg2 : IVec S2x800000 32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_v33

def fn {F : FTy → Type} [FloatOps F] (main_arg0 : FVec F S50000x128 .f32) (main_arg1 : FVec F S800000x128 .f32) (main_arg2 : IVec S2x800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S800000x1 : Shape := ⟨2, ![800000, 1]⟩
abbrev S1x128 : Shape := ⟨2, ![1, 128]⟩
abbrev S250x8x128 : Shape := ⟨3, ![250, 8, 128]⟩
abbrev S3200x128 : Shape := ⟨2, ![3200, 128]⟩
abbrev S1x8x128 : Shape := ⟨3, ![1, 8, 128]⟩
abbrev S8x128 : Shape := ⟨2, ![8, 128]⟩
abbrev S250x1x128 : Shape := ⟨3, ![250, 1, 128]⟩
abbrev S250x128 : Shape := ⟨2, ![250, 128]⟩
abbrev S_ : Shape := ⟨0, ![]⟩
abbrev S25x8x128 : Shape := ⟨3, ![25, 8, 128]⟩
abbrev S25x1x128 : Shape := ⟨3, ![25, 1, 128]⟩
abbrev S25x128 : Shape := ⟨2, ![25, 128]⟩
abbrev S10000x128 : Shape := ⟨2, ![10000, 128]⟩

abbrev nBuf : Space → Nat
  | .hbm => 101
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S128x512, .f32⟩
  | .hbm, ⟨22, _⟩ => ⟨S512, .f32⟩
  | .hbm, ⟨23, _⟩ => ⟨S1x512, .f32⟩
  | .hbm, ⟨24, _⟩ => ⟨S50000x512, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .bf16⟩
  | .hbm, ⟨30, _⟩ => ⟨S50000x128, .bf16⟩
  | .hbm, ⟨31, _⟩ => ⟨S50000x128, .bf16⟩
  | .hbm, ⟨32, _⟩ => ⟨S800000x1, .i32⟩
  | .hbm, ⟨33, _⟩ => ⟨S800000x128, .bf16⟩
  | .hbm, ⟨34, _⟩ => ⟨S800000x1, .i32⟩
  | .hbm, ⟨35, _⟩ => ⟨S800000x128, .bf16⟩
  | .hbm, ⟨36, _⟩ => ⟨S800000x1, .i32⟩
  | .hbm, ⟨37, _⟩ => ⟨S800000x128, .bf16⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S250x8x128, .f32⟩
  | .hbm, ⟨43, _⟩ => ⟨S250x8x128, .f32⟩
  | .hbm, ⟨44, _⟩ => ⟨S250x1x128, .f32⟩
  | .hbm, ⟨45, _⟩ => ⟨S250x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S250x1x128, .f32⟩
  | .hbm, ⟨52, _⟩ => ⟨S250x128, .f32⟩
  | .hbm, ⟨53, _⟩ => ⟨S_, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S25x8x128, .f32⟩
  | .hbm, ⟨74, _⟩ => ⟨S25x8x128, .f32⟩
  | .hbm, ⟨75, _⟩ => ⟨S25x1x128, .f32⟩
  | .hbm, ⟨76, _⟩ => ⟨S25x128, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S25x1x128, .f32⟩
  | .hbm, ⟨83, _⟩ => ⟨S25x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S50000x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S800000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S3200x128, .f32⟩
  | .local _ .vmem, ⟨7, _⟩ => ⟨S3200x128, .f32⟩
  | .local _ .vmem, ⟨8, _⟩ => ⟨S128x128, .f32⟩
  | .local _ .vmem, ⟨9, _⟩ => ⟨S1x128, .f32⟩
  | .local _ .vmem, ⟨10, _⟩ => ⟨S3200x128, .bf16⟩
  | .local _ .vmem, ⟨11, _⟩ => ⟨S3200x128, .bf16⟩
  | .local _ .vmem, ⟨12, _⟩ => ⟨S3200x128, .bf16⟩
  | .local _ .vmem, ⟨13, _⟩ => ⟨S3200x128, .bf16⟩
  | .local _ .vmem, ⟨14, _⟩ => ⟨S3200x128, .bf16⟩
  | .local _ .vmem, ⟨15, _⟩ => ⟨S3200x128, .bf16⟩
  | .local _ .vmem, ⟨16, _⟩ => ⟨S3200x128, .f32⟩
  | .local _ .vmem, ⟨17, _⟩ => ⟨S3200x128, .f32⟩
  | .local _ .vmem, ⟨18, _⟩ => ⟨S3200x128, .f32⟩
  | .local _ .vmem, ⟨19, _⟩ => ⟨S3200x128, .f32⟩
  | .local _ .vmem, ⟨20, _⟩ => ⟨S3200x128, .f32⟩
  | .local _ .vmem, ⟨21, _⟩ => ⟨S3200x128, .f32⟩
  | .local _ .vmem, ⟨22, _⟩ => ⟨S1x8x128, .f32⟩
  | .local _ .vmem, ⟨23, _⟩ => ⟨S1x8x128, .f32⟩
  | .local _ .vmem, ⟨24, _⟩ => ⟨S1x8x128, .f32⟩
  | .local _ .vmem, ⟨25, _⟩ => ⟨S1x8x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S1x8x128, .f32⟩
  | .local _ .vmem, ⟨33, _⟩ => ⟨S1x8x128, .f32⟩
  | .local _ .vmem, ⟨34, _⟩ => ⟨S1x8x128, .f32⟩
  | .local _ .vmem, ⟨35, _⟩ => ⟨S1x8x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S10000x128, .f32⟩
  | .local _ .vmem, ⟨51, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call0_v0 : Ref sig .tc := ⟨.hbm, 32, rfl⟩
abbrev main_v15 : Ref sig .tc := ⟨.hbm, 33, rfl⟩
abbrev main_call1_v0 : Ref sig .tc := ⟨.hbm, 34, rfl⟩
abbrev main_v16 : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev main_v19_3 : Ref sig .tc := ⟨.hbm, 42, rfl⟩
abbrev main_v19_4 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_3 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41_0 : Ref sig .tc := ⟨.hbm, 72, rfl⟩
abbrev main_v41_1 : Ref sig .tc := ⟨.hbm, 73, rfl⟩
abbrev main_v41_2 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_v44 : Ref sig .tc := ⟨.hbm, 78, rfl⟩
abbrev main_cst_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_8 : Ref sig .tc := ⟨.hbm, 84, rfl⟩
abbrev main_v49 : Ref sig .tc := ⟨.hbm, 85, rfl⟩
abbrev main_cst_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3200x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3200x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3200x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S3200x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3200x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3200x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x8x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S800000_S800000x1_0 : S800000.BroadcastsInDim S800000x1 (![0] : Fin 1 → Fin S800000x1.rank)
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  shapeCasts_S3200x128_S3200x128 : S3200x128.ShapeCasts S3200x128
  reduces_S3200x128_S128 : S3200x128.Reduces [0] S128
  broadcasts_S1x128_S8x128 : S1x128.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S250x8x128_S250x1x128_0_0_0 : S250x8x128.Slices ![0, 0, 0] S250x1x128
  shapeCasts_S250x1x128_S250x128 : S250x1x128.ShapeCasts S250x128
  reducesTo_S250x128_S128_d0 : S250x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  shapeCasts_S2000x128_S2000x128 : S2000x128.ShapeCasts S2000x128
  reduces_S2000x128_S128 : S2000x128.Reduces [0] S128
  slices_S25x8x128_S25x1x128_0_0_0 : S25x8x128.Slices ![0, 0, 0] S25x1x128
  shapeCasts_S25x1x128_S25x128 : S25x1x128.ShapeCasts S25x128
  reducesTo_S25x128_S128_d0 : S25x128.ReducesTo [0] S128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S800000x128.size a
  hwx1_3 : ∀ i : grid1.Coords, EltTy.bits .bf16 = 32 ∨ (Rect.block (s := S800000x128) S3200x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x128.size a ≤ S800000x128.size a
  hwx1_4 : ∀ i : grid1.Coords, EltTy.bits .bf16 = 32 ∨ (Rect.block (s := S800000x128) S3200x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3200x128.size a ≤ S800000x128.size a
  hwx1_5 : ∀ i : grid1.Coords, EltTy.bits .bf16 = 32 ∨ (Rect.block (s := S800000x128) S3200x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S3200x128.size a ≤ S800000x128.size a
  hwx1_6 : ∀ i : grid1.Coords, EltTy.bits .f32 = 32 ∨ (Rect.block (s := S800000x128) S3200x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x128.size a ≤ S800000x128.size a
  hwx1_7 : ∀ i : grid1.Coords, EltTy.bits .f32 = 32 ∨ (Rect.block (s := S800000x128) S3200x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S3200x128.size a ≤ S800000x128.size a
  hwx1_8 : ∀ i : grid1.Coords, EltTy.bits .f32 = 32 ∨ (Rect.block (s := S800000x128) S3200x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x8x128.size a ≤ S250x8x128.size a
  hwx1_9 : ∀ i : grid1.Coords, EltTy.bits .f32 = 32 ∨ (Rect.block (s := S250x8x128) S1x8x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x8x128.size a ≤ S250x8x128.size a
  hwx1_10 : ∀ i : grid1.Coords, EltTy.bits .f32 = 32 ∨ (Rect.block (s := S250x8x128) S1x8x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8x128.size a ≤ S25x8x128.size a
  hwx2_3 : ∀ i : grid2.Coords, EltTy.bits .f32 = 32 ∨ (Rect.block (s := S25x8x128) S1x8x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x8x128.size a ≤ S25x8x128.size a
  hwx2_4 : ∀ i : grid2.Coords, EltTy.bits .f32 = 32 ∨ (Rect.block (s := S25x8x128) S1x8x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S800000x128.size a
  hwx4_0 : ∀ i : grid4.Coords, EltTy.bits .f32 = 32 ∨ (Rect.block (s := S800000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S800000x128.size a
  hwx4_5 : ∀ i : grid4.Coords, EltTy.bits .f32 = 32 ∨ (Rect.block (s := S800000x128) S10000x128.size (cc4_transform_5 i) (hinb4_5 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S3200x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S3200x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S3200x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19_0) S3200x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v19_1) S3200x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_2) S3200x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v19_3) S1x8x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v19_4) S1x8x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v8) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41_0) S2000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41_1) S1x8x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_2) S1x8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v41_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v19_0) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S10000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S800000x128, .f32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S800000x128, .f32⟩
  | 30 => ⟨S1x128, .f32⟩
  | 31 => ⟨S800000x128, .f32⟩
  | 32 => ⟨S800000x128, .f32⟩
  | 33 => ⟨S50000x128, .f32⟩
  | 34 => ⟨S1x128, .f32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S800000x128, .f32⟩
  | 62 => ⟨S800000x128, .f32⟩
  | 63 => ⟨S_, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S50000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S800000x128, .f32⟩
  | 24 => ⟨S800000x128, .f32⟩
  | 25 => ⟨S800000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S800000x128, .f32⟩
  | 41 => ⟨S800000x128, .f32⟩
  | 42 => ⟨S1x128, .f32⟩
  | 43 => ⟨S800000x128, .f32⟩
  | 44 => ⟨S800000x128, .f32⟩
  | 45 => ⟨S_, .f32⟩
  | 46 => ⟨S128, .f32⟩
  | 47 => ⟨S128, .f32⟩
  | 48 => ⟨S128, .f32⟩
  | 49 => ⟨S1x128, .f32⟩
  | 50 => ⟨S800000x128, .f32⟩
  | 51 => ⟨S800000x128, .f32⟩
  | 52 => ⟨S1x128, .f32⟩
  | 53 => ⟨S800000x128, .f32⟩
  | 54 => ⟨S800000x128, .f32⟩
  | 55 => ⟨S_, .f32⟩
  | 56 => ⟨S800000x128, .f32⟩
  | 57 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_1 : Ref sig .tc := ⟨.hbm, 50, rfl⟩
abbrev main_v31 : Ref sig .tc := ⟨.hbm, 51, rfl⟩
abbrev main_v32 : Ref sig .tc := ⟨.hbm, 52, rfl⟩
abbrev main_c_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_c_5 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_cst_10 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_cst_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_cst_1 : Ref sig .tc := ⟨.hbm, 108, rfl⟩
abbrev main_call0_v8 : Ref sig .tc := ⟨.hbm, 109, rfl⟩
abbrev main_call0_cst_2 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_call0_cst_3 : Ref sig .tc := ⟨.hbm, 114, rfl⟩
abbrev main_call0_v12 : Ref sig .tc := ⟨.hbm, 115, rfl⟩
abbrev main_call0_cst_4 : Ref sig .tc := ⟨.hbm, 116, rfl⟩
abbrev main_call0_call0_v0 : Ref sig .tc := ⟨.hbm, 117, rfl⟩
abbrev main_call0_call0_v1 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_12 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call1_cst : Ref sig .tc := ⟨.hbm, 136, rfl⟩
abbrev main_call1_v0 : Ref sig .tc := ⟨.hbm, 137, rfl⟩
abbrev main_v83 : Ref sig .tc := ⟨.hbm, 138, rfl⟩
abbrev main_cst_13 : Ref sig .tc := ⟨.hbm, 139, rfl⟩
abbrev main_v84 : Ref sig .tc := ⟨.hbm, 140, rfl⟩
abbrev main_cst_14 : Ref sig .tc := ⟨.hbm, 141, rfl⟩
abbrev main_v85 : Ref sig .tc := ⟨.hbm, 142, rfl⟩
abbrev main_v86 : Ref sig .tc := ⟨.hbm, 143, rfl⟩
abbrev main_c_15 : Ref sig .tc := ⟨.hbm, 144, rfl⟩
abbrev main_call2_cst : Ref sig .tc := ⟨.hbm, 145, rfl⟩
abbrev main_call2_v0 : Ref sig .tc := ⟨.hbm, 146, rfl⟩
abbrev main_call2_v1 : Ref sig .tc := ⟨.hbm, 147, rfl⟩
abbrev main_call2_cst_0 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_call2_v5 : Ref sig .tc := ⟨.hbm, 152, rfl⟩
abbrev main_call2_v6 : Ref sig .tc := ⟨.hbm, 153, rfl⟩
abbrev main_call2_v7 : Ref sig .tc := ⟨.hbm, 154, rfl⟩
abbrev main_call2_cst_1 : Ref sig .tc := ⟨.hbm, 155, rfl⟩
abbrev main_call2_v8 : Ref sig .tc := ⟨.hbm, 156, rfl⟩
abbrev main_call2_cst_2 : Ref sig .tc := ⟨.hbm, 157, rfl⟩
abbrev main_call2_v9 : Ref sig .tc := ⟨.hbm, 158, rfl⟩
abbrev main_call2_v10 : Ref sig .tc := ⟨.hbm, 159, rfl⟩
abbrev main_call2_v11 : Ref sig .tc := ⟨.hbm, 160, rfl⟩
abbrev main_call2_cst_3 : Ref sig .tc := ⟨.hbm, 161, rfl⟩
abbrev main_call2_v12 : Ref sig .tc := ⟨.hbm, 162, rfl⟩
abbrev main_call2_cst_4 : Ref sig .tc := ⟨.hbm, 163, rfl⟩
abbrev main_call2_call0_v0 : Ref sig .tc := ⟨.hbm, 164, rfl⟩
abbrev main_call2_call0_v1 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_16 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_call3_cst : Ref sig .tc := ⟨.hbm, 183, rfl⟩
abbrev main_call3_v0 : Ref sig .tc := ⟨.hbm, 184, rfl⟩
abbrev main_v103 : Ref sig .tc := ⟨.hbm, 185, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S800000x128_S128_d0 : S800000x128.ReducesTo [0] S128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.K.Region0.lean ====
/- The first launch: each 2000-row block of the output is the matching block of node features times the weight matrix, plus the bias row. -/
import proofs.«418560_j60430189855387_3_alg».proof.Proof.Gen.Kernel.Launch
import proofs.«418560_j60430189855387_3_alg».proof.Proof.Gen.Kernel.Skeleton
import proofs.«418560_j60430189855387_3_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

def out0_3 (x0 : Vec F S2000x128 .f32) (x1 : Vec F S128x512 .f32) (x2 : Vec F S1x512 .f32) : Vec F S2000x512 .f32 :=
  View.canon [⟨r0_3, k0_pay1 (View.ld x0 r0_0) (View.ld x1 r0_1) (View.ld x2 r0_2)⟩]

/-- The body's triple: the inputs are unchanged and each output is its `out0_w` of the inputs, whatever it was. -/
theorem sound_kernel0 {c : Dev nD} {E i arg1 harg1 arg2 harg2 arg3 harg3 arg4 harg4}
    {x0 x1 x2 y0} {K : PUnit → sProp (MT nD τ sig Unit (Elt F) ℕ (UR sig nD τ) ℕ)} :
    iprop(owns c arg1 fullShare x0 ∗ owns c arg2 fullShare x1 ∗ owns c arg3 fullShare x2 ∗ owns c arg4 fullShare y0
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; rotate_left; isplitl [H1]; rotate_left; isplitl [H2]; rotate_left
  all_goals iexists _; isplitr; swap; iassumption; ipureintro
  all_goals first | exact View.read_writes_eq_canon _ _ _ (View.cover_of_tiled _ (Shape.size _) (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t
    = out0_3 (iblk0 V c 0 t) (iblk0 V c 1 t) (iblk0 V c 2 t) := by dsimp only [dat0]

/-- At every grid point each input is its block, so the body's triple gives the obligation there. -/
theorem body_obligation0 (c : Dev nD) : BodyObligation (dat0 (F := F) V c) (defs₀ (F := F)) Variants.none () Set.univ := fun t => by
  have b0 : ∀ d, (dat0 V c).before 0 t d = iblk0 V c 0 t :=
    (dat0 V c).before_in_eq_fetched 0 rfl (fun _ => rfl) (fun _ _ _ => rfl) (fun _ => rfl) t
  have b1 : ∀ d, (dat0 V c).before 1 t d = iblk0 V c 1 t :=
    (dat0 V c).before_in_eq_fetched 1 rfl (fun _ => rfl) (fun _ _ _ => rfl) (fun _ => rfl) t
  have b2 : ∀ d, (dat0 V c).before 2 t d = iblk0 V c 2 t :=
    (dat0 V c).before_in_eq_fetched 2 rfl (fun _ => rfl) (fun _ _ _ => rfl) (fun _ => rfl) t
  rw [bigSep_W0, bigSep_W0]
  simp only [b0, b1, b2]
  rw [show (dat0 V c).owesAt () t.succ = (dat0 V c).owesAt () t.castSucc from rfl]
  dsimp only [dat0]
  show _ ⊢ wp frame _ _ (bodyAt0 t) _
  iintro ⟨HΦ, Ho, ⟨%d0, H0⟩, ⟨%d1, H1⟩, ⟨%d2, H2⟩, ⟨%d3, H3⟩⟩
  iapply sound_kernel0
  isplitl [H0]; rotate_left; isplitl [H1]; rotate_left; isplitl [H2]; rotate_left; isplitl [H3]; rotate_left
  iintro ⟨H0, H1, H2, H3⟩
  isplitl [HΦ]; rotate_left; isplitl [Ho]; rotate_left; isplitl [H0]; rotate_left; isplitl [H1]; rotate_left; isplitl [H2]; rotate_left
  all_goals try iassumption

end Cert.Kernel.Hand

end
-- ==== Proof.K.Region1.lean ====
/- The second launch: from a block of 3200 edges' features, the weight matrix, the bias row and the three gathered node projections, the message, the gate and the gated source projection, with the column sums of the message and of its square spread over an 8-row tile. -/
import proofs.«418560_j60430189855387_3_alg».proof.Proof.Gen.Kernel.Launch
import proofs.«418560_j60430189855387_3_alg».proof.Proof.Gen.Kernel.Skeleton
import proofs.«418560_j60430189855387_3_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S3200x128 := Rect.unit (s := S3200x128) ![0, 0] S3200x128.size inb_S3200x128_S3200x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_s : Rect S1x8x128 := Rect.unit (s := S1x8x128) ![0, 0, 0] S1x8x128.size inb_S1x8x128_S1x8x128_0_0_0

section Outs
variable (x0 : Vec F S3200x128 .f32) (x1 : Vec F S128x128 .f32) (x2 : Vec F S1x128 .f32)
  (x3 x4 x5 : Vec F S3200x128 .bf16)

def out1_6 : Vec F S3200x128 .f32 :=
  View.canon [⟨r1_a, k1_pay2 (View.ld x0 r1_a) (View.ld x1 r1_w) (View.ld x2 r1_b) (View.ld x3 r1_a) (View.ld x4 r1_a)⟩]
def out1_7 : Vec F S3200x128 .f32 :=
  View.canon [⟨r1_a, k1_pay4 (View.ld x0 r1_a) (View.ld x1 r1_w) (View.ld x2 r1_b) (View.ld x3 r1_a) (View.ld x4 r1_a) (View.ld x5 r1_a)⟩]
def out1_8 : Vec F S3200x128 .f32 :=
  View.canon [⟨r1_a, k1_pay3 (View.ld x0 r1_a) (View.ld x1 r1_w) (View.ld x2 r1_b) (View.ld x3 r1_a) (View.ld x4 r1_a)⟩]
def out1_9 : Vec F S1x8x128 .f32 :=
  View.canon [⟨r1_s, k1_pay6 (View.ld x0 r1_a) (View.ld x1 r1_w) (View.ld x2 r1_b) (View.ld x3 r1_a) (View.ld x4 r1_a)⟩]
def out1_10 : Vec F S1x8x128 .f32 :=
  View.canon [⟨r1_s, k1_pay1 (k1_pay5 (View.ld x0 r1_a) (View.ld x1 r1_w) (View.ld x2 r1_b) (View.ld x3 r1_a) (View.ld x4 r1_a))⟩]
end Outs

/-- The body's triple: the inputs are unchanged and each output is its `out1_w` of the inputs, whatever it was. -/
theorem sound_kernel1 {c : Dev nD} {E i arg1 harg1 arg2 harg2 arg3 harg3 arg4 harg4 arg5 harg5 arg6 harg6 arg7 harg7 arg8 harg8 arg9 harg9 arg10 harg10 arg11 harg11}
    {x0 x1 x2 x3 x4 x5 y0 y1 y2 y3 y4} {K : PUnit → sProp (MT nD τ sig Unit (Elt F) ℕ (UR sig nD τ) ℕ)} :
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare y0 ∗ owns c arg8 fullShare y1 ∗ owns c arg9 fullShare y2 ∗ owns c arg10 fullShare y3
        ∗ owns c arg11 fullShare y4
        ∗ (iprop(owns c arg1 fullShare x0 ∗ owns c arg2 fullShare x1 ∗ owns c arg3 fullShare x2 ∗ owns c arg4 fullShare x3 ∗ owns c arg5 fullShare x4
            ∗ owns c arg6 fullShare x5 ∗ owns c arg7 fullShare (out1_6 x0 x1 x2 x3 x4) ∗ owns c arg8 fullShare (out1_7 x0 x1 x2 x3 x4 x5)
            ∗ owns c arg9 fullShare (out1_8 x0 x1 x2 x3 x4) ∗ owns c arg10 fullShare (out1_9 x0 x1 x2 x3 x4) ∗ owns c arg11 fullShare (out1_10 x0 x1 x2 x3 x4)) -∗ K ⟨⟩))
      ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11) K := by
  simp only [cc1__edge_fused_kernel_eq_skeleton]; unfold cc1__edge_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, -, H8⟩, ⟨%f9, -, H9⟩, ⟨%f10, -, H10⟩, Hk⟩
  subst hf0 hf1 hf2 hf3 hf4 hf5
  sl_exec
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  all_goals iexists _; isplitr; swap; iassumption; ipureintro
  all_goals first | exact View.read_writes_eq_canon _ _ _ (View.cover_of_tiled _ (Shape.size _) (by rfl)) | rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t
    = out1_10 (iblk1 V c 0 t) (iblk1 V c 1 t) (iblk1 V c 2 t) (iblk1 V c 3 t) (iblk1 V c 4 t) := by dsimp only [dat1]

/-- At every grid point each input is its block, so the body's triple gives the obligation there. -/
theorem body_obligation1 (c : Dev nD) : BodyObligation (dat1 (F := F) V c) (defs₀ (F := F)) Variants.none () Set.univ := fun t => by
  have b0 : ∀ d, (dat1 V c).before 0 t d = iblk1 V c 0 t :=
    (dat1 V c).before_in_eq_fetched 0 rfl (fun _ => rfl) (fun _ _ _ => rfl) (fun _ => rfl) t
  have b1 : ∀ d, (dat1 V c).before 1 t d = iblk1 V c 1 t :=
    (dat1 V c).before_in_eq_fetched 1 rfl (fun _ => rfl) (fun _ _ _ => rfl) (fun _ => rfl) t
  have b2 : ∀ d, (dat1 V c).before 2 t d = iblk1 V c 2 t :=
    (dat1 V c).before_in_eq_fetched 2 rfl (fun _ => rfl) (fun _ _ _ => rfl) (fun _ => rfl) t
  have b3 : ∀ d, (dat1 V c).before 3 t d = iblk1 V c 3 t :=
    (dat1 V c).before_in_eq_fetched 3 rfl (fun _ => rfl) (fun _ _ _ => rfl) (fun _ => rfl) t
  have b4 : ∀ d, (dat1 V c).before 4 t d = iblk1 V c 4 t :=
    (dat1 V c).before_in_eq_fetched 4 rfl (fun _ => rfl) (fun _ _ _ => rfl) (fun _ => rfl) t
  have b5 : ∀ d, (dat1 V c).before 5 t d = iblk1 V c 5 t :=
    (dat1 V c).before_in_eq_fetched 5 rfl (fun _ => rfl) (fun _ _ _ => rfl) (fun _ => rfl) t
  rw [bigSep_W1, bigSep_W1]
  simp only [b0, b1, b2, b3, b4, b5]
  rw [show (dat1 V c).owesAt () t.succ = (dat1 V c).owesAt () t.castSucc from rfl]
  dsimp only [dat1]
  show _ ⊢ wp frame _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel1
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left
  iintro ⟨H0, H1, H2, H3, H4, H5, H6, H7, H8, H9, H10⟩
  isplitl [HΦ]; rotate_left; isplitl [Ho]; rotate_left; isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  all_goals try iassumption

end Cert.Kernel.Hand

end
-- ==== Proof.K.Region2.lean ====
/- The third launch: each 2000-row block of the sum of two arrays, with the column sums of the block and of its square spread over an 8-row tile. -/
import proofs.«418560_j60430189855387_3_alg».proof.Proof.Gen.Kernel.Launch
import proofs.«418560_j60430189855387_3_alg».proof.Proof.Gen.Kernel.Skeleton
import proofs.«418560_j60430189855387_3_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2000x128 := Rect.unit (s := S2000x128) ![0, 0] S2000x128.size inb_S2000x128_S2000x128_0_0
abbrev r2_s : Rect S1x8x128 := Rect.unit (s := S1x8x128) ![0, 0, 0] S1x8x128.size inb_S1x8x128_S1x8x128_0_0_0

def out2_2 (x0 x1 : Vec F S2000x128 .f32) : Vec F S2000x128 .f32 :=
  View.canon [⟨r2_a, k2_pay1 (View.ld x0 r2_a) (View.ld x1 r2_a)⟩]
def out2_3 (x0 x1 : Vec F S2000x128 .f32) : Vec F S1x8x128 .f32 :=
  View.canon [⟨r2_s, k2_pay2 (View.ld x0 r2_a) (View.ld x1 r2_a)⟩]
def out2_4 (x0 x1 : Vec F S2000x128 .f32) : Vec F S1x8x128 .f32 :=
  View.canon [⟨r2_s, k2_pay3 (View.ld x0 r2_a) (View.ld x1 r2_a)⟩]

/-- The body's triple: the inputs are unchanged and each output is its `out2_w` of the inputs, whatever it was. -/
theorem sound_kernel2 {c : Dev nD} {E i arg1 harg1 arg2 harg2 arg3 harg3 arg4 harg4 arg5 harg5}
    {x0 x1 y0 y1 y2} {K : PUnit → sProp (MT nD τ sig Unit (Elt F) ℕ (UR sig nD τ) ℕ)} :
    iprop(owns c arg1 fullShare x0 ∗ owns c arg2 fullShare x1 ∗ owns c arg3 fullShare y0 ∗ owns c arg4 fullShare y1 ∗ owns c arg5 fullShare y2
        ∗ (iprop(owns c arg1 fullShare x0 ∗ owns c arg2 fullShare x1 ∗ owns c arg3 fullShare (out2_2 x0 x1) ∗ owns c arg4 fullShare (out2_3 x0 x1)
            ∗ owns c arg5 fullShare (out2_4 x0 x1)) -∗ K ⟨⟩))
      ⊢ wp frame (wpE (defs₀ (F := F)) Variants.none c none) E (cc2__x_combine_kernel i arg1 harg1 arg2 harg2 arg3 harg3 arg4 harg4 arg5 harg5) K := by
  simp only [cc2__x_combine_kernel_eq_skeleton]; unfold cc2__x_combine_kernel_skel
  unfold owns
  iintro ⟨⟨%f0, %hf0, H0⟩, ⟨%f1, %hf1, H1⟩, ⟨%f2, -, H2⟩, ⟨%f3, -, H3⟩, ⟨%f4, -, H4⟩, Hk⟩
  subst hf0 hf1
  sl_exec
  sl_step
  iapply Hk
  isplitl [H0]; rotate_left; isplitl [H1]; rotate_left; isplitl [H2]; rotate_left; isplitl [H3]; rotate_left
  all_goals iexists _; isplitr; swap; iassumption; ipureintro
  all_goals first | exact View.read_writes_eq_canon _ _ _ (View.cover_of_tiled _ (Shape.size _) (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t
    = out2_2 (iblk2 V c 0 t) (iblk2 V c 1 t) := by dsimp only [dat2]
theorem after2_3 (c : Dev nD) (t : Fin cfg2.N) : (dat2 V c).after 3 t
    = out2_3 (iblk2 V c 0 t) (iblk2 V c 1 t) := by dsimp only [dat2]
theorem after2_4 (c : Dev nD) (t : Fin cfg2.N) : (dat2 V c).after 4 t
    = out2_4 (iblk2 V c 0 t) (iblk2 V c 1 t) := by dsimp only [dat2]

/-- At every grid point each input is its block, so the body's triple gives the obligation there. -/
theorem body_obligation2 (c : Dev nD) : BodyObligation (dat2 (F := F) V c) (defs₀ (F := F)) Variants.none () Set.univ := fun t => by
  have b0 : ∀ d, (dat2 V c).before 0 t d = iblk2 V c 0 t :=
    (dat2 V c).before_in_eq_fetched 0 rfl (fun _ => rfl) (fun _ _ _ => rfl) (fun _ => rfl) t
  have b1 : ∀ d, (dat2 V c).before 1 t d = iblk2 V c 1 t :=
    (dat2 V c).before_in_eq_fetched 1 rfl (fun _ => rfl) (fun _ _ _ => rfl) (fun _ => rfl) t
  rw [bigSep_W2, bigSep_W2]
  simp only [b0, b1]
  rw [show (dat2 V c).owesAt () t.succ = (dat2 V c).owesAt () t.castSucc from rfl]
  dsimp only [dat2]
  show _ ⊢ wp frame _ _ (bodyAt2 t) _
  iintro ⟨HΦ, Ho, ⟨%d0, H0⟩, ⟨%d1, H1⟩, ⟨%d2, H2⟩, ⟨%d3, H3⟩, ⟨%d4, H4⟩⟩
  iapply sound_kernel2
  isplitl [H0]; rotate_left; isplitl [H1]; rotate_left; isplitl [H2]; rotate_left; isplitl [H3]; rotate_left; isplitl [H4]; rotate_left
  iintro ⟨H0, H1, H2, H3, H4⟩
  isplitl [HΦ]; rotate_left; isplitl [Ho]; rotate_left; isplitl [H0]; rotate_left; isplitl [H1]; rotate_left; isplitl [H2]; rotate_left; isplitl [H3]; rotate_left
  all_goals try iassumption

end Cert.Kernel.Hand

end
-- ==== Proof.K.Region3.lean ====
/- A normalisation launch: each 10000-row block less the mean row, scaled by the scale row over the root of the variance row plus a constant, shifted by the shift row, then its positive part. -/
import proofs.«418560_j60430189855387_3_alg».proof.Proof.Gen.Kernel.Launch
import proofs.«418560_j60430189855387_3_alg».proof.Proof.Gen.Kernel.Skeleton
import proofs.«418560_j60430189855387_3_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S10000x128 := Rect.unit (s := S10000x128) ![0, 0] S10000x128.size inb_S10000x128_S10000x128_0_0
abbrev r3_b : Rect S1x128 := Rect.unit (s := S1x128) ![0, 0] S1x128.size inb_S1x128_S1x128_0_0

def out3_5 (x0 : Vec F S10000x128 .f32) (x1 x2 x3 x4 : Vec F S1x128 .f32) : Vec F S10000x128 .f32 :=
  View.canon [⟨r3_a, k3_pay1 (View.ld x0 r3_a) (View.ld x1 r3_b) (View.ld x2 r3_b) (View.ld x3 r3_b) (View.ld x4 r3_b)⟩]

/-- The body's triple: the inputs are unchanged and each output is its `out3_w` of the inputs, whatever it was. -/
theorem sound_kernel3 {c : Dev nD} {E i arg1 harg1 arg2 harg2 arg3 harg3 arg4 harg4 arg5 harg5 arg6 harg6}
    {x0 x1 x2 x3 x4 y0} {K : PUnit → sProp (MT nD τ sig Unit (Elt F) ℕ (UR sig nD τ) ℕ)} :
    iprop(owns c arg1 fullShare x0 ∗ owns c arg2 fullShare x1 ∗ owns c arg3 fullShare x2 ∗ owns c arg4 fullShare x3 ∗ owns c arg5 fullShare x4
        ∗ owns c arg6 fullShare y0
        ∗ (iprop(owns c arg1 fullShare x0 ∗ owns c arg2 fullShare x1 ∗ owns c arg3 fullShare x2 ∗ owns c arg4 fullShare x3 ∗ owns c arg5 fullShare x4
            ∗ owns c arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]; rotate_left; isplitl [H1]; rotate_left; isplitl [H2]; rotate_left; isplitl [H3]; rotate_left; isplitl [H4]; rotate_left
  all_goals iexists _; isplitr; swap; iassumption; ipureintro
  all_goals first | exact View.read_writes_eq_canon _ _ _ (View.cover_of_tiled _ (Shape.size _) (by rfl)) | rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- At every grid point each input is its block, so the body's triple gives the obligation there. -/
theorem body_obligation3 (c : Dev nD) : BodyObligation (dat3 (F := F) V c) (defs₀ (F := F)) Variants.none () Set.univ := fun t => by
  have b0 : ∀ d, (dat3 V c).before 0 t d = iblk3 V c 0 t :=
    (dat3 V c).before_in_eq_fetched 0 rfl (fun _ => rfl) (fun _ _ _ => rfl) (fun _ => rfl) t
  have b1 : ∀ d, (dat3 V c).before 1 t d = iblk3 V c 1 t :=
    (dat3 V c).before_in_eq_fetched 1 rfl (fun _ => rfl) (fun _ _ _ => rfl) (fun _ => rfl) t
  have b2 : ∀ d, (dat3 V c).before 2 t d = iblk3 V c 2 t :=
    (dat3 V c).before_in_eq_fetched 2 rfl (fun _ => rfl) (fun _ _ _ => rfl) (fun _ => rfl) t
  have b3 : ∀ d, (dat3 V c).before 3 t d = iblk3 V c 3 t :=
    (dat3 V c).before_in_eq_fetched 3 rfl (fun _ => rfl) (fun _ _ _ => rfl) (fun _ => rfl) t
  have b4 : ∀ d, (dat3 V c).before 4 t d = iblk3 V c 4 t :=
    (dat3 V c).before_in_eq_fetched 4 rfl (fun _ => rfl) (fun _ _ _ => rfl) (fun _ => rfl) t
  rw [bigSep_W3, bigSep_W3]
  simp only [b0, b1, b2, b3, b4]
  rw [show (dat3 V c).owesAt () t.succ = (dat3 V c).owesAt () t.castSucc from rfl]
  dsimp only [dat3]
  show _ ⊢ wp frame _ _ (bodyAt3 t) _
  iintro ⟨HΦ, Ho, ⟨%d0, H0⟩, ⟨%d1, H1⟩, ⟨%d2, H2⟩, ⟨%d3, H3⟩, ⟨%d4, H4⟩, ⟨%d5, H5⟩⟩
  iapply sound_kernel3
  isplitl [H0]; rotate_left; isplitl [H1]; rotate_left; isplitl [H2]; rotate_left; isplitl [H3]; rotate_left; isplitl [H4]; rotate_left; isplitl [H5]; rotate_left
  iintro ⟨H0, H1, H2, H3, H4, H5⟩
  isplitl [HΦ]; rotate_left; isplitl [Ho]; rotate_left; isplitl [H0]; rotate_left; isplitl [H1]; rotate_left; isplitl [H2]; rotate_left; isplitl [H3]; rotate_left; isplitl [H4]; rotate_left
  all_goals try iassumption

end Cert.Kernel.Hand

end
-- ==== Proof.K.Region4.lean ====
/- The last launch: the normalisation of the launch before it, on the other array's 80 blocks. -/
import proofs.«418560_j60430189855387_3_alg».proof.Proof.Gen.Kernel.Launch
import proofs.«418560_j60430189855387_3_alg».proof.Proof.Gen.Kernel.Points
import proofs.«418560_j60430189855387_3_alg».proof.Proof.K.Region3

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S10000x128 := Rect.unit (s := S10000x128) ![0, 0] S10000x128.size inb_S10000x128_S10000x128_0_0
abbrev r4_b : Rect S1x128 := Rect.unit (s := S1x128) ![0, 0] S1x128.size inb_S1x128_S1x128_0_0

def out4_5 (x0 : Vec F S10000x128 .f32) (x1 x2 x3 x4 : Vec F S1x128 .f32) : Vec F S10000x128 .f32 :=
  View.canon [⟨r4_a, k4_pay1 (View.ld x0 r4_a) (View.ld x1 r4_b) (View.ld x2 r4_b) (View.ld x3 r4_b) (View.ld x4 r4_b)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

/-- At every grid point each input is its block, so the body's triple gives the obligation there. -/
theorem body_obligation4 (c : Dev nD) : BodyObligation (dat4 (F := F) V c) (defs₀ (F := F)) Variants.none () Set.univ := fun t => by
  have b0 : ∀ d, (dat4 V c).before 0 t d = iblk4 V c 0 t :=
    (dat4 V c).before_in_eq_fetched 0 rfl (fun _ => rfl) (fun _ _ _ => rfl) (fun _ => rfl) t
  have b1 : ∀ d, (dat4 V c).before 1 t d = iblk4 V c 1 t :=
    (dat4 V c).before_in_eq_fetched 1 rfl (fun _ => rfl) (fun _ _ _ => rfl) (fun _ => rfl) t
  have b2 : ∀ d, (dat4 V c).before 2 t d = iblk4 V c 2 t :=
    (dat4 V c).before_in_eq_fetched 2 rfl (fun _ => rfl) (fun _ _ _ => rfl) (fun _ => rfl) t
  have b3 : ∀ d, (dat4 V c).before 3 t d = iblk4 V c 3 t :=
    (dat4 V c).before_in_eq_fetched 3 rfl (fun _ => rfl) (fun _ _ _ => rfl) (fun _ => rfl) t
  have b4 : ∀ d, (dat4 V c).before 4 t d = iblk4 V c 4 t :=
    (dat4 V c).before_in_eq_fetched 4 rfl (fun _ => rfl) (fun _ _ _ => rfl) (fun _ => rfl) t
  rw [bigSep_W4, bigSep_W4]
  simp only [b0, b1, b2, b3, b4]
  rw [show (dat4 V c).owesAt () t.succ = (dat4 V c).owesAt () t.castSucc from rfl]
  dsimp only [dat4]
  rw [show @out4_5 F _ = out3_5 from rfl]
  show _ ⊢ wp frame _ _ (cc3__bn_relu_kernel (grid3.coords ⟨0, by decide⟩) _ (hstage4_0 _) _ (hstage4_1 _) _ (hstage4_2 _) _ (hstage4_3 _)
    _ (hstage4_4 _) _ (hstage4_5 _)) _
  iintro ⟨HΦ, Ho, ⟨%d0, H0⟩, ⟨%d1, H1⟩, ⟨%d2, H2⟩, ⟨%d3, H3⟩, ⟨%d4, H4⟩, ⟨%d5, H5⟩⟩
  iapply sound_kernel3
  isplitl [H0]; rotate_left; isplitl [H1]; rotate_left; isplitl [H2]; rotate_left; isplitl [H3]; rotate_left; isplitl [H4]; rotate_left; isplitl [H5]; rotate_left
  iintro ⟨H0, H1, H2, H3, H4, H5⟩
  isplitl [HΦ]; rotate_left; isplitl [Ho]; rotate_left; isplitl [H0]; rotate_left; isplitl [H1]; rotate_left; isplitl [H2]; rotate_left; isplitl [H3]; rotate_left; isplitl [H4]; rotate_left
  all_goals try iassumption

end Cert.Kernel.Hand

end
-- ==== Proof.LibRunSteps.lean ====
/- A program's run as steps between boundaries at which every buffer is at known contents: what a launch leaves, a launch
   as such a step, and a chain of steps from the initial contents, read back from the final memory. -/
import Idealize.ShloMosaic.Lib.Pipeline.RegionsLoop
import Idealize.ShloMosaic.Lib.Pipeline.FrameSuffix

noncomputable section

namespace Cert.LibRunSteps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {nD : Nat} {τ : Topo} {sig : RefSig} {F : FTy → Type} [FloatOps F] {Λ₀ : Labels}

local notation "𝕄" => MT nD τ sig Unit (Elt F) ℕ (UR sig nD τ) ℕ

section
variable {cfg : Cfg sig Λ₀} (d : (c : Dev nD) → Dat τ (Elt F) Unit ℕ (UR sig nD τ) ℕ cfg c) (W : Dev nD → Valuation τ sig (Elt F))

/-- After a launch entered at `W`: its arrays at their contents after the last grid point, every other buffer as entered. -/
def aft (c : Dev nD) : Valuation τ sig (Elt F) := Pipeline.withArrays cfg.spec c (W c) fun w => (d c).arrAt w cfg.N

theorem aft_arr (hinj : Function.Injective (Pipeline.arrRef cfg.spec)) (c : Dev nD) (w : Fin cfg.W) :
    aft d W c (Proc.devRef .tc (Pipeline.arrRef cfg.spec w)) = (d c).arrAt w cfg.N :=
  Pipeline.withArrays_arr cfg.spec hinj c _ _ w

/-- An input window's array keeps its contents through the launch, so only the arrays `outs` of the output windows change. -/
theorem aft_keep (hinj : Function.Injective (Pipeline.arrRef cfg.spec))
    (hA : ∀ c w, (d c).A w = W c (Proc.devRef .tc (Pipeline.arrRef cfg.spec w))) (outs : List (Ref sig .tc))
    (hin : ∀ w, Pipeline.arrRef cfg.spec w ∉ outs → (cfg.win w).isOut = false) (c : Dev nD) (b : Ref sig .tc) (h : b ∉ outs) :
    aft d W c (Proc.devRef .tc b) = W c (Proc.devRef .tc b) := by
  by_cases hb : ∃ w, Pipeline.arrRef cfg.spec w = b
  · obtain ⟨w, rfl⟩ := hb
    exact (aft_arr d W hinj c w).trans (((d c).arrAt_in w (hin w h) _).trans (hA c w))
  · exact Pipeline.withArrays_of_ne cfg.spec c _ _ b fun w e => hb ⟨w, e⟩
end

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- The state at a boundary: every buffer at the boundary's contents. -/
abbrev T (W : Dev nD → Valuation τ sig (Elt F)) (c : Dev nD) : sProp 𝕄 :=
  iprop(StableHlo.held (c : Thread nD τ) (Pipeline.ucRefs τ sig) (W c) ∗ R c)
abbrev Tend (W : Dev nD → Valuation τ sig (Elt F)) (c : Dev nD) : sProp 𝕄 :=
  iprop((StableHlo.held (c : Thread nD τ) (Pipeline.ucRefs τ sig) (W c) ∗ ∃ r, prngReg c r)
    ∗ ∃ W, owes (c : Thread nD τ) (0 : CellTallies nD τ sig Unit) W)

variable {P : Type} [Fintype P] [DecidableEq P] (cfgs : P → Cfg sig Λ₀)

abbrev pcsOf : P → Pipeline.PCfg sig Λ₀ (Elt F) := fun p => (cfgs p).toPCfg
abbrev admOf : (p : P) → (pcsOf (F := F) cfgs p).Adm := fun p => (cfgs p).toPCfg_adm

variable (pdats : (p : P) → (c : Dev nD) → Dat τ (Elt F) Unit ℕ (UR sig nD τ) ℕ (Pipeline.pin (pcsOf (F := F) cfgs) (admOf cfgs) p) c)
  (defs₀ : Defs nD τ sig (Elt F) Λ₀)

/-- A stretch of host operations as a step from `T W` to `T` of `W` after them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcsOf (F := F) cfgs) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Launch `p` as a step from `T W` to `T (aft (pdats p) W)`. -/
def reg (p : P) (lf : Pipeline.LaunchFacts (nD := nD) (τ := τ) cfgs p) (W : Dev nD → Valuation τ sig (Elt F))
    (hb : ∀ c, BodyObligation (pdats p c) defs₀ Variants.none () Set.univ)
    (hA : ∀ c w, (pdats p c).A w = W c (Proc.devRef .tc (Pipeline.arrRef (cfgs p).spec w)))
    (hq : ∀ c w, (pdats p c).q w = fullShare := by intros; rfl)
    (ho : ∀ c t, (pdats p c).owed t = 0 := by intros; rfl)
    (hr : ∀ c t, (pdats p c).recorded t = Set.univ := by intros; rfl)
    (hΦ : ∀ c t, (pdats p c).Φ t = Pipeline.ΦA (cfgs p).spec c := by intros; rfl) :
    Pipeline.RegionSeg (pcsOf (F := F) cfgs) (admOf cfgs) pdats () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre := T W
  post := T (aft (pdats p) W)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcsOf (F := F) cfgs) (admOf cfgs) pdats lf.win lf.arr_whole c
      ((pdats p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [ho c, hr c]
      icases HO with ⟨%W', HO⟩; iexists W'; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcsOf (F := F) cfgs) (admOf cfgs) (Ix := Unit) (Name := ℕ) (U := UR sig nD τ) (Lvl := ℕ)
      lf.win lf.arr_whole c pdats ((pdats p c).share_full (hq c)) (fun b => W c b) (fun b => aft (pdats p) W c b)
      ((pdats p c).arrAt · (cfgs p).N) (fun w => (aft_arr _ W lf.win.arr_inj c w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W', -, HO⟩; iexists W'; iexact HO

/-- A chain of steps from the launch contents to `Wn` terminates on every weakly fair execution, and every final memory holds each buffer at `Wn`. -/
theorem run_held (hinj : Function.Injective (cellOf (nD := nD) (τ := τ) cfgs)) (m : (ℓ : Loc nD τ sig) → Buf (Elt F) ℓ) (ρ : Dev nD → PrngReg)
    (main : Dev nD → Prog (TpuEff nD τ sig (Elt F) (Pipeline.Sig Λ₀ P fun p => (pcsOf (F := F) cfgs p).Adm) .tc) PUnit)
    (segs : List (Pipeline.Seg (pcsOf (F := F) cfgs) (admOf cfgs) pdats () defs₀ Variants.none L lv))
    (hmain : ∀ c, main c = Pipeline.chain (segs.map Pipeline.Seg.prog)) (hnd : (Pipeline.Seg.pipes segs).Nodup)
    (Wn : Dev nD → Valuation τ sig (Elt F)) (hch : Pipeline.Seg.Chains (T fun c b => m (c, b)) segs (Tend Wn)) :
    θ_run (Pipeline.defs (pcsOf (F := F) cfgs) defs₀) (onTc (τ := τ) main) ⟨m, fun _ => 0, ρ⟩ (fun r => ∀ (c : Dev nD) (b : Ref sig .tc),
      ¬ (Proc.devRef .tc b : DevRef τ sig).isScoped → r.2.mem ((c.tc : Thread nD τ).loc b) = Wn c (Proc.devRef .tc b)) :=
  Pipeline.θ_run_regions_kit (pcsOf (F := F) cfgs) (admOf cfgs) pdats () hinj emb₁ defs₀ Variants.none L lv m ρ main segs
    (fun c Q => by rewrite [hmain c, Pipeline.Seg.run_eq_chain]; exact .rfl) hnd
    (O₀ := 0) (hL := fun _ _ => rfl) (G := fun _ => BI.emp)
    (u₀ := initOf (Pipeline.cells cfgs hinj) (Pipeline.launchToks cfgs hinj))
    (hu₀ := by
      rw [ownU_emb₁, BI.bigSep_emp_const]
      iintro Hu; imodintro
      isplitl [Hu]; · iexact Hu
      iempintro)
    (T₀ := T fun c b => m (c, b)) (Tₙ := fun c => iprop(StableHlo.held (c : Thread nD τ) (Pipeline.ucRefs τ sig) (Wn c) ∗ ∃ r, prngReg c r))
    (hch := hch)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h c b hb => h c _ (Finset.mem_filter.mpr ⟨StableHlo.devRef_mem_tcRefs b, hb⟩))

end Cert.LibRunSteps

end
-- ==== Proof.K.Run.lean ====
/- The run of the whole program as steps between boundaries: a host stretch rewrites the buffers it writes, a launch the arrays of its
   output windows; every other buffer is carried, so the arguments end as launched and the results hold what the last two launches wrote. -/
import proofs.«418560_j60430189855387_3_alg».proof.Proof.Gen.Kernel.Regions
import proofs.«418560_j60430189855387_3_alg».proof.Proof.K.Region0
import proofs.«418560_j60430189855387_3_alg».proof.Proof.K.Region1
import proofs.«418560_j60430189855387_3_alg».proof.Proof.K.Region2
import proofs.«418560_j60430189855387_3_alg».proof.Proof.K.Region3
import proofs.«418560_j60430189855387_3_alg».proof.Proof.K.Region4
import proofs.«418560_j60430189855387_3_alg».proof.Proof.LibRunSteps

noncomputable section

namespace Cert.Kernel.Hand

open Cert.Kernel Cert.Kernel.Gen Cert.LibRunSteps
open Idealize.ShloMosaic Idealize.ShloMosaic.TcCoe Idealize.SL.BI
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_keep (c : Dev nD) (b : Ref sig .tc) (h : b ∉ hostOps0_W) : W1 m c (Proc.devRef .tc b) = W0 m c (Proc.devRef .tc b) :=
  StableHlo.after_of_writes_sub hostOps0 _ hostOps0_writes h

def W2 (c : Dev nD) : Valuation τ sig (Elt F) := aft (dat0 (V1 m)) (W1 m) c
theorem W2_arr (c : Dev nD) (w : Fin cfg0.W) :
    W2 m c (Proc.devRef .tc (Pipeline.arrRef spec0 w)) = (dat0 (V1 m) c).arrAt w cfg0.N := aft_arr _ _ launch0.win.arr_inj c w
abbrev outs0 : List (Ref sig .tc) := [main_v7]
theorem W2_keep (c : Dev nD) (b : Ref sig .tc) (h : b ∉ outs0) : W2 m c (Proc.devRef .tc b) = W1 m c (Proc.devRef .tc b) :=
  aft_keep _ _ launch0.win.arr_inj (A_eq0 (V1 m)) outs0 (by decide) c b h

abbrev W3 : Dev nD → Valuation τ sig (Elt F) := fun c => StableHlo.after hostOps1 (W2 m c)
theorem W3_keep (c : Dev nD) (b : Ref sig .tc) (h : b ∉ hostOps1_W) : W3 m c (Proc.devRef .tc b) = W2 m c (Proc.devRef .tc b) :=
  StableHlo.after_of_writes_sub hostOps1 _ hostOps1_writes h

abbrev W4 : Dev nD → Valuation τ sig (Elt F) := fun c => StableHlo.after hostOps1_1 (W3 m c)
theorem W4_keep (c : Dev nD) (b : Ref sig .tc) (h : b ∉ hostOps1_1_W) : W4 m c (Proc.devRef .tc b) = W3 m c (Proc.devRef .tc b) :=
  StableHlo.after_of_writes_sub hostOps1_1 _ hostOps1_1_writes h

abbrev W5 : Dev nD → Valuation τ sig (Elt F) := fun c => StableHlo.after hostOps1_2 (W4 m c)
theorem W5_keep (c : Dev nD) (b : Ref sig .tc) (h : b ∉ hostOps1_2_W) : W5 m c (Proc.devRef .tc b) = W4 m c (Proc.devRef .tc b) :=
  StableHlo.after_of_writes_sub hostOps1_2 _ hostOps1_2_writes h

abbrev W6 : Dev nD → Valuation τ sig (Elt F) := fun c => StableHlo.after hostOps1_3 (W5 m c)
theorem W6_keep (c : Dev nD) (b : Ref sig .tc) (h : b ∉ hostOps1_3_W) : W6 m c (Proc.devRef .tc b) = W5 m c (Proc.devRef .tc b) :=
  StableHlo.after_of_writes_sub hostOps1_3 _ hostOps1_3_writes h

abbrev W7 : Dev nD → Valuation τ sig (Elt F) := fun c => StableHlo.after hostOps1_4 (W6 m c)
abbrev V7 : (c : Dev nD) → (b : Ref sig .tc) → Buf (Elt F) ((c : Thread nD τ).loc b) := fun c b => W7 m c b
theorem W7_keep (c : Dev nD) (b : Ref sig .tc) (h : b ∉ hostOps1_4_W) : W7 m c (Proc.devRef .tc b) = W6 m c (Proc.devRef .tc b) :=
  StableHlo.after_of_writes_sub hostOps1_4 _ hostOps1_4_writes h

def W8 (c : Dev nD) : Valuation τ sig (Elt F) := aft (dat1 (V7 m)) (W7 m) c
theorem W8_arr (c : Dev nD) (w : Fin cfg1.W) :
    W8 m c (Proc.devRef .tc (Pipeline.arrRef spec1 w)) = (dat1 (V7 m) c).arrAt w cfg1.N := aft_arr _ _ launch1.win.arr_inj c w
abbrev outs1 : List (Ref sig .tc) := [main_v19_0, main_v19_1, main_v19_2, main_v19_3, main_v19_4]
theorem W8_keep (c : Dev nD) (b : Ref sig .tc) (h : b ∉ outs1) : W8 m c (Proc.devRef .tc b) = W7 m c (Proc.devRef .tc b) :=
  aft_keep _ _ launch1.win.arr_inj (A_eq1 (V7 m)) outs1 (by decide) c b h

abbrev W9 : Dev nD → Valuation τ sig (Elt F) := fun c => StableHlo.after hostOps2 (W8 m c)
abbrev V9 : (c : Dev nD) → (b : Ref sig .tc) → Buf (Elt F) ((c : Thread nD τ).loc b) := fun c b => W9 m c b
theorem W9_keep (c : Dev nD) (b : Ref sig .tc) (h : b ∉ hostOps2_W) : W9 m c (Proc.devRef .tc b) = W8 m c (Proc.devRef .tc b) :=
  StableHlo.after_of_writes_sub hostOps2 _ hostOps2_writes h

def W10 (c : Dev nD) : Valuation τ sig (Elt F) := aft (dat2 (V9 m)) (W9 m) c
theorem W10_arr (c : Dev nD) (w : Fin cfg2.W) :
    W10 m c (Proc.devRef .tc (Pipeline.arrRef spec2 w)) = (dat2 (V9 m) c).arrAt w cfg2.N := aft_arr _ _ launch2.win.arr_inj c w
abbrev outs2 : List (Ref sig .tc) := [main_v41_0, main_v41_1, main_v41_2]
theorem W10_keep (c : Dev nD) (b : Ref sig .tc) (h : b ∉ outs2) : W10 m c (Proc.devRef .tc b) = W9 m c (Proc.devRef .tc b) :=
  aft_keep _ _ launch2.win.arr_inj (A_eq2 (V9 m)) outs2 (by decide) c b h

abbrev W11 : Dev nD → Valuation τ sig (Elt F) := fun c => StableHlo.after hostOps3 (W10 m c)
abbrev V11 : (c : Dev nD) → (b : Ref sig .tc) → Buf (Elt F) ((c : Thread nD τ).loc b) := fun c b => W11 m c b
theorem W11_keep (c : Dev nD) (b : Ref sig .tc) (h : b ∉ hostOps3_W) : W11 m c (Proc.devRef .tc b) = W10 m c (Proc.devRef .tc b) :=
  StableHlo.after_of_writes_sub hostOps3 _ hostOps3_writes h

def W12 (c : Dev nD) : Valuation τ sig (Elt F) := aft (dat3 (V11 m)) (W11 m) c
theorem W12_arr (c : Dev nD) (w : Fin cfg3.W) :
    W12 m c (Proc.devRef .tc (Pipeline.arrRef spec3 w)) = (dat3 (V11 m) c).arrAt w cfg3.N := aft_arr _ _ launch3.win.arr_inj c w
abbrev outs3 : List (Ref sig .tc) := [main_v58]
theorem W12_keep (c : Dev nD) (b : Ref sig .tc) (h : b ∉ outs3) : W12 m c (Proc.devRef .tc b) = W11 m c (Proc.devRef .tc b) :=
  aft_keep _ _ launch3.win.arr_inj (A_eq3 (V11 m)) outs3 (by decide) c b h

abbrev W13 : Dev nD → Valuation τ sig (Elt F) := fun c => StableHlo.after hostOps4 (W12 m c)
abbrev V13 : (c : Dev nD) → (b : Ref sig .tc) → Buf (Elt F) ((c : Thread nD τ).loc b) := fun c b => W13 m c b
theorem W13_keep (c : Dev nD) (b : Ref sig .tc) (h : b ∉ hostOps4_W) : W13 m c (Proc.devRef .tc b) = W12 m c (Proc.devRef .tc b) :=
  StableHlo.after_of_writes_sub hostOps4 _ hostOps4_writes h

def W14 (c : Dev nD) : Valuation τ sig (Elt F) := aft (dat4 (V13 m)) (W13 m) c
abbrev outs4 : List (Ref sig .tc) := [main_v63]
theorem W14_keep (c : Dev nD) (b : Ref sig .tc) (h : b ∉ outs4) : W14 m c (Proc.devRef .tc b) = W13 m c (Proc.devRef .tc b) :=
  aft_keep _ _ launch4.win.arr_inj (A_eq4 (V13 m)) outs4 (by decide) c b h

/-- Every launch's proof data, each at the contents its launch is entered with. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
  | ⟨2, _⟩ => fun c => dat2 (V9 m) c
  | ⟨3, _⟩ => fun c => dat3 (V11 m) c
  | ⟨4, _⟩ => fun c => dat4 (V13 m) c
abbrev segs : List (Pipeline.Seg (pcfgs (F := F)) adm (pdats m) () defs₀ Variants.none L lv) :=
  [ .host (hseg cfgs defs₀ hostOps0 hostOps0_sub hostOps0_fresh (W0 m)),
    .region (reg cfgs (pdats m) defs₀ 0 launch0 (W1 m) (body_obligation0 (V1 m)) (A_eq0 (V1 m))),
    .host (hseg cfgs defs₀ hostOps1 hostOps1_sub hostOps1_fresh (W2 m)),
    .host (hseg cfgs defs₀ hostOps1_1 hostOps1_1_sub hostOps1_1_fresh (W3 m)),
    .host (hseg cfgs defs₀ hostOps1_2 hostOps1_2_sub hostOps1_2_fresh (W4 m)),
    .host (hseg cfgs defs₀ hostOps1_3 hostOps1_3_sub hostOps1_3_fresh (W5 m)),
    .host (hseg cfgs defs₀ hostOps1_4 hostOps1_4_sub hostOps1_4_fresh (W6 m)),
    .region (reg cfgs (pdats m) defs₀ 1 launch1 (W7 m) (body_obligation1 (V7 m)) (A_eq1 (V7 m))),
    .host (hseg cfgs defs₀ hostOps2 hostOps2_sub hostOps2_fresh (W8 m)),
    .region (reg cfgs (pdats m) defs₀ 2 launch2 (W9 m) (body_obligation2 (V9 m)) (A_eq2 (V9 m))),
    .host (hseg cfgs defs₀ hostOps3 hostOps3_sub hostOps3_fresh (W10 m)),
    .region (reg cfgs (pdats m) defs₀ 3 launch3 (W11 m) (body_obligation3 (V11 m)) (A_eq3 (V11 m))),
    .host (hseg cfgs defs₀ hostOps4 hostOps4_sub hostOps4_fresh (W12 m)),
    .region (reg cfgs (pdats m) defs₀ 4 launch4 (W13 m) (body_obligation4 (V13 m)) (A_eq4 (V13 m))) ]

/-- Every final memory holds each buffer at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W14 m c (Proc.devRef .tc b)) :=
  run_held cfgs (pdats m) defs₀ cellOf_inj m ρ main (segs m) main_chain (show ([0, 1, 2, 3, 4] : List (Fin 5)).Nodup by decide) (W14 m)
    (by repeat (refine ⟨fun _ => .rfl, ?_⟩)
        exact fun _ => sep_assoc')

/-- A buffer that no host operation and no launch writes is read back from such a final memory as launched. -/
theorem kept_end (c : Dev nD) {mem : (ℓ : Loc nD τ sig) → Buf (Elt F) ℓ}
    (hm : ∀ b : Ref sig .tc, ¬ (Proc.devRef .tc b : DevRef τ sig).isScoped → mem ((c.tc : Thread nD τ).loc b) = W14 m c (Proc.devRef .tc b))
    (b : Ref sig .tc) (hu : ¬ (Proc.devRef .tc b : DevRef τ sig).isScoped)
    (h : b ∉ hostOps0_W ++ outs0 ++ hostOps1_W ++ hostOps1_1_W ++ hostOps1_2_W ++ hostOps1_3_W ++ hostOps1_4_W ++ outs1 ++ hostOps2_W ++ outs2 ++ hostOps3_W ++ outs3 ++ hostOps4_W ++ outs4) :
    mem ((c.tc : Thread nD τ).loc b) = m ((c.tc : Thread nD τ).loc b) := by
  simp only [List.mem_append, not_or] at h
  obtain ⟨⟨⟨⟨⟨⟨⟨⟨⟨⟨⟨⟨⟨h0, g0⟩, h1⟩, h11⟩, h12⟩, h13⟩, h14⟩, g1⟩, h2⟩, g2⟩, h3⟩, g3⟩, h4⟩, g4⟩ := h
  refine (hm b hu).trans ?_
  rw [W14_keep m c b g4, W13_keep m c b h4, W12_keep m c b g3, W11_keep m c b h3, W10_keep m c b g2, W9_keep m c b h2,
    W8_keep m c b g1, W7_keep m c b h14, W6_keep m c b h13, W5_keep m c b h12, W4_keep m c b h11, W3_keep m c b h1,
    W2_keep m c b g0, W1_keep m c b h0]

/-- Every argument array holds in `mem`, at `c`, what it held at launch. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)

/-- The two result arrays end at what the last two launches wrote back, the arguments as launched. -/
theorem run_results : θ_run defs (onTc (τ := τ) (main (F := F))) ⟨m, fun _ => 0, ρ⟩ (fun r => ∀ c : Dev nD,
      r.2.mem ((c.tc : Thread nD τ).loc main_v58) = (dat3 (V11 m) c).arrAt 5 cfg3.N
      ∧ r.2.mem ((c.tc : Thread nD τ).loc main_v63) = (dat4 (V13 m) c).arrAt 5 cfg4.N ∧ ArgsKept m r.2.mem c) :=
  (θ_run defs _ _).mono (fun r h c => by
    refine ⟨(h c main_v58 (by decide)).trans (((W14_keep m c main_v58 (by decide)).trans (W13_keep m c main_v58 (by decide))).trans (W12_arr m c 5)),
      (h c main_v63 (by decide)).trans (aft_arr _ _ launch4.win.arr_inj c 5), ?_⟩
    and_intros <;> exact kept_end m c (h c) _ (by decide) (by decide)) (run_all m ρ)

/-- Every argument array ends as launched. -/
theorem frame : θ_run defs (onTc (τ := τ) (main (F := F))) ⟨m, fun _ => 0, ρ⟩ (fun r => ∀ c : Dev nD, ArgsKept m r.2.mem c) :=
  (θ_run defs _ _).mono (fun r h c => (h c).2.2) (run_results m ρ)

end Cert.Kernel.Hand

end
-- ==== Proof.KI.Region0.lean ====
/- The first launch: each 2000-row block of the output is the matching block of node features times the weight matrix, plus the bias row. -/
import proofs.«418560_j60430189855387_3_alg».proof.Proof.Gen.KernelIdeal.Launch
import proofs.«418560_j60430189855387_3_alg».proof.Proof.Gen.KernelIdeal.Skeleton
import proofs.«418560_j60430189855387_3_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

def out0_3 (x0 : Vec F S2000x128 .f32) (x1 : Vec F S128x512 .f32) (x2 : Vec F S1x512 .f32) : Vec F S2000x512 .f32 :=
  View.canon [⟨r0_3, k0_pay1 (View.ld x0 r0_0) (View.ld x1 r0_1) (View.ld x2 r0_2)⟩]

/-- The body's triple: the inputs are unchanged and each output is its `out0_w` of the inputs, whatever it was. -/
theorem sound_kernel0 {c : Dev nD} {E i arg1 harg1 arg2 harg2 arg3 harg3 arg4 harg4}
    {x0 x1 x2 y0} {K : PUnit → sProp (MT nD τ sig Unit (Elt F) ℕ (UR sig nD τ) ℕ)} :
    iprop(owns c arg1 fullShare x0 ∗ owns c arg2 fullShare x1 ∗ owns c arg3 fullShare x2 ∗ owns c arg4 fullShare y0
        ∗ (iprop(owns c arg1 fullShare x0 ∗ owns c arg2 fullShare x1 ∗ owns c arg3 fullShare x2 ∗ owns c arg4 fullShare (out0_3 x0 x1 x2)) -∗ K ⟨⟩))
      ⊢ wp frame (wpE (defs₀ (F := F)) Variants.none c none) E (cc0__node_proj_kernel i arg1 harg1 arg2 harg2 arg3 harg3 arg4 harg4) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; rotate_left; isplitl [H1]; rotate_left; isplitl [H2]; rotate_left
  all_goals iexists _; isplitr; swap; iassumption; ipureintro
  all_goals first | exact View.read_writes_eq_canon _ _ _ (View.cover_of_tiled _ (Shape.size _) (by rfl)) | rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t
    = out0_3 (iblk0 V c 0 t) (iblk0 V c 1 t) (iblk0 V c 2 t) := by dsimp only [dat0]

/-- At every grid point each input is its block, so the body's triple gives the obligation there. -/
theorem body_obligation0 (c : Dev nD) : BodyObligation (dat0 (F := F) V c) (defs₀ (F := F)) Variants.none () Set.univ := fun t => by
  have b0 : ∀ d, (dat0 V c).before 0 t d = iblk0 V c 0 t :=
    (dat0 V c).before_in_eq_fetched 0 rfl (fun _ => rfl) (fun _ _ _ => rfl) (fun _ => rfl) t
  have b1 : ∀ d, (dat0 V c).before 1 t d = iblk0 V c 1 t :=
    (dat0 V c).before_in_eq_fetched 1 rfl (fun _ => rfl) (fun _ _ _ => rfl) (fun _ => rfl) t
  have b2 : ∀ d, (dat0 V c).before 2 t d = iblk0 V c 2 t :=
    (dat0 V c).before_in_eq_fetched 2 rfl (fun _ => rfl) (fun _ _ _ => rfl) (fun _ => rfl) t
  rw [bigSep_W0, bigSep_W0]
  simp only [b0, b1, b2]
  rw [show (dat0 V c).owesAt () t.succ = (dat0 V c).owesAt () t.castSucc from rfl]
  dsimp only [dat0]
  show _ ⊢ wp frame _ _ (bodyAt0 t) _
  iintro ⟨HΦ, Ho, ⟨%d0, H0⟩, ⟨%d1, H1⟩, ⟨%d2, H2⟩, ⟨%d3, H3⟩⟩
  iapply sound_kernel0
  isplitl [H0]; rotate_left; isplitl [H1]; rotate_left; isplitl [H2]; rotate_left; isplitl [H3]; rotate_left
  iintro ⟨H0, H1, H2, H3⟩
  isplitl [HΦ]; rotate_left; isplitl [Ho]; rotate_left; isplitl [H0]; rotate_left; isplitl [H1]; rotate_left; isplitl [H2]; rotate_left
  all_goals try iassumption

end Cert.KernelIdeal.Hand

end
-- ==== Proof.KI.Region1.lean ====
/- The second launch: from a block of 3200 edges' features, the weight matrix, the bias row and the three gathered node projections, the message, the gate and the gated source projection, with the column sums of the message and of its square spread over an 8-row tile. -/
import proofs.«418560_j60430189855387_3_alg».proof.Proof.Gen.KernelIdeal.Launch
import proofs.«418560_j60430189855387_3_alg».proof.Proof.Gen.KernelIdeal.Skeleton
import proofs.«418560_j60430189855387_3_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S3200x128 := Rect.unit (s := S3200x128) ![0, 0] S3200x128.size inb_S3200x128_S3200x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0
abbrev r1_s : Rect S1x8x128 := Rect.unit (s := S1x8x128) ![0, 0, 0] S1x8x128.size inb_S1x8x128_S1x8x128_0_0_0

section Outs
variable (x0 : Vec F S3200x128 .f32) (x1 : Vec F S128x128 .f32) (x2 : Vec F S1x128 .f32)
  (x3 x4 x5 : Vec F S3200x128 .bf16)

def out1_6 : Vec F S3200x128 .f32 :=
  View.canon [⟨r1_a, k1_pay2 (View.ld x0 r1_a) (View.ld x1 r1_w) (View.ld x2 r1_b) (View.ld x3 r1_a) (View.ld x4 r1_a)⟩]
def out1_7 : Vec F S3200x128 .f32 :=
  View.canon [⟨r1_a, k1_pay4 (View.ld x0 r1_a) (View.ld x1 r1_w) (View.ld x2 r1_b) (View.ld x3 r1_a) (View.ld x4 r1_a) (View.ld x5 r1_a)⟩]
def out1_8 : Vec F S3200x128 .f32 :=
  View.canon [⟨r1_a, k1_pay3 (View.ld x0 r1_a) (View.ld x1 r1_w) (View.ld x2 r1_b) (View.ld x3 r1_a) (View.ld x4 r1_a)⟩]
def out1_9 : Vec F S1x8x128 .f32 :=
  View.canon [⟨r1_s, k1_pay6 (View.ld x0 r1_a) (View.ld x1 r1_w) (View.ld x2 r1_b) (View.ld x3 r1_a) (View.ld x4 r1_a)⟩]
def out1_10 : Vec F S1x8x128 .f32 :=
  View.canon [⟨r1_s, k1_pay1 (k1_pay5 (View.ld x0 r1_a) (View.ld x1 r1_w) (View.ld x2 r1_b) (View.ld x3 r1_a) (View.ld x4 r1_a))⟩]
end Outs

/-- The body's triple: the inputs are unchanged and each output is its `out1_w` of the inputs, whatever it was. -/
theorem sound_kernel1 {c : Dev nD} {E i arg1 harg1 arg2 harg2 arg3 harg3 arg4 harg4 arg5 harg5 arg6 harg6 arg7 harg7 arg8 harg8 arg9 harg9 arg10 harg10 arg11 harg11}
    {x0 x1 x2 x3 x4 x5 y0 y1 y2 y3 y4} {K : PUnit → sProp (MT nD τ sig Unit (Elt F) ℕ (UR sig nD τ) ℕ)} :
    iprop(owns c arg1 fullShare x0 ∗ owns c arg2 fullShare x1 ∗ owns c arg3 fullShare x2 ∗ owns c arg4 fullShare x3 ∗ owns c arg5 fullShare x4
        ∗ owns c arg6 fullShare x5 ∗ owns c arg7 fullShare y0 ∗ owns c arg8 fullShare y1 ∗ owns c arg9 fullShare y2 ∗ owns c arg10 fullShare y3
        ∗ owns c arg11 fullShare y4
        ∗ (iprop(owns c arg1 fullShare x0 ∗ owns c arg2 fullShare x1 ∗ owns c arg3 fullShare x2 ∗ owns c arg4 fullShare x3 ∗ owns c arg5 fullShare x4
            ∗ owns c arg6 fullShare x5 ∗ owns c arg7 fullShare (out1_6 x0 x1 x2 x3 x4) ∗ owns c arg8 fullShare (out1_7 x0 x1 x2 x3 x4 x5)
            ∗ owns c arg9 fullShare (out1_8 x0 x1 x2 x3 x4) ∗ owns c arg10 fullShare (out1_9 x0 x1 x2 x3 x4) ∗ owns c arg11 fullShare (out1_10 x0 x1 x2 x3 x4)) -∗ K ⟨⟩))
      ⊢ wp frame (wpE (defs₀ (F := F)) Variants.none c none) E (cc1__edge_fused_kernel i arg1 harg1 arg2 harg2 arg3 harg3 arg4 harg4 arg5 harg5 arg6 harg6 arg7 harg7 arg8 harg8 arg9 harg9 arg10 harg10 arg11 harg11) K := by
  simp only [cc1__edge_fused_kernel_eq_skeleton]; unfold cc1__edge_fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%f7, -, H7⟩, ⟨%f8, -, H8⟩, ⟨%f9, -, H9⟩, ⟨%f10, -, H10⟩, Hk⟩
  subst hf0 hf1 hf2 hf3 hf4 hf5
  sl_exec
  sl_step
  iapply Hk
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  all_goals iexists _; isplitr; swap; iassumption; ipureintro
  all_goals first | exact View.read_writes_eq_canon _ _ _ (View.cover_of_tiled _ (Shape.size _) (by rfl)) | rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 2 t) (iblk1 V c 3 t) (iblk1 V c 4 t)
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) := by dsimp only [dat1]
theorem after1_9 (c : Dev nD) (t : Fin cfg1.N) : (dat1 V c).after 9 t
    = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t
    = out1_10 (iblk1 V c 0 t) (iblk1 V c 1 t) (iblk1 V c 2 t) (iblk1 V c 3 t) (iblk1 V c 4 t) := by dsimp only [dat1]

/-- At every grid point each input is its block, so the body's triple gives the obligation there. -/
theorem body_obligation1 (c : Dev nD) : BodyObligation (dat1 (F := F) V c) (defs₀ (F := F)) Variants.none () Set.univ := fun t => by
  have b0 : ∀ d, (dat1 V c).before 0 t d = iblk1 V c 0 t :=
    (dat1 V c).before_in_eq_fetched 0 rfl (fun _ => rfl) (fun _ _ _ => rfl) (fun _ => rfl) t
  have b1 : ∀ d, (dat1 V c).before 1 t d = iblk1 V c 1 t :=
    (dat1 V c).before_in_eq_fetched 1 rfl (fun _ => rfl) (fun _ _ _ => rfl) (fun _ => rfl) t
  have b2 : ∀ d, (dat1 V c).before 2 t d = iblk1 V c 2 t :=
    (dat1 V c).before_in_eq_fetched 2 rfl (fun _ => rfl) (fun _ _ _ => rfl) (fun _ => rfl) t
  have b3 : ∀ d, (dat1 V c).before 3 t d = iblk1 V c 3 t :=
    (dat1 V c).before_in_eq_fetched 3 rfl (fun _ => rfl) (fun _ _ _ => rfl) (fun _ => rfl) t
  have b4 : ∀ d, (dat1 V c).before 4 t d = iblk1 V c 4 t :=
    (dat1 V c).before_in_eq_fetched 4 rfl (fun _ => rfl) (fun _ _ _ => rfl) (fun _ => rfl) t
  have b5 : ∀ d, (dat1 V c).before 5 t d = iblk1 V c 5 t :=
    (dat1 V c).before_in_eq_fetched 5 rfl (fun _ => rfl) (fun _ _ _ => rfl) (fun _ => rfl) t
  rw [bigSep_W1, bigSep_W1]
  simp only [b0, b1, b2, b3, b4, b5]
  rw [show (dat1 V c).owesAt () t.succ = (dat1 V c).owesAt () t.castSucc from rfl]
  dsimp only [dat1]
  show _ ⊢ wp frame _ _ (bodyAt1 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel1
  isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left; isplitl [H10]; rotate_left
  iintro ⟨H0, H1, H2, H3, H4, H5, H6, H7, H8, H9, H10⟩
  isplitl [HΦ]; rotate_left; isplitl [Ho]; rotate_left; isplitl [H0]; rotate_left; isplitl [H1]; rotate_left; isplitl [H2]; rotate_left; isplitl [H3]; rotate_left; isplitl [H4]; rotate_left; isplitl [H5]; rotate_left; isplitl [H6]; rotate_left; isplitl [H7]; rotate_left; isplitl [H8]; rotate_left; isplitl [H9]; rotate_left
  all_goals try iassumption

end Cert.KernelIdeal.Hand

end
-- ==== Proof.KI.Region2.lean ====
/- The third launch: each 2000-row block of the sum of two arrays, with the column sums of the block and of its square spread over an 8-row tile. -/
import proofs.«418560_j60430189855387_3_alg».proof.Proof.Gen.KernelIdeal.Launch
import proofs.«418560_j60430189855387_3_alg».proof.Proof.Gen.KernelIdeal.Skeleton
import proofs.«418560_j60430189855387_3_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S2000x128 := Rect.unit (s := S2000x128) ![0, 0] S2000x128.size inb_S2000x128_S2000x128_0_0
abbrev r2_s : Rect S1x8x128 := Rect.unit (s := S1x8x128) ![0, 0, 0] S1x8x128.size inb_S1x8x128_S1x8x128_0_0_0

def out2_2 (x0 x1 : Vec F S2000x128 .f32) : Vec F S2000x128 .f32 :=
  View.canon [⟨r2_a, k2_pay1 (View.ld x0 r2_a) (View.ld x1 r2_a)⟩]
def out2_3 (x0 x1 : Vec F S2000x128 .f32) : Vec F S1x8x128 .f32 :=
  View.canon [⟨r2_s, k2_pay2 (View.ld x0 r2_a) (View.ld x1 r2_a)⟩]
def out2_4 (x0 x1 : Vec F S2000x128 .f32) : Vec F S1x8x128 .f32 :=
  View.canon [⟨r2_s, k2_pay3 (View.ld x0 r2_a) (View.ld x1 r2_a)⟩]

/-- The body's triple: the inputs are unchanged and each output is its `out2_w` of the inputs, whatever it was. -/
theorem sound_kernel2 {c : Dev nD} {E i arg1 harg1 arg2 harg2 arg3 harg3 arg4 harg4 arg5 harg5}
    {x0 x1 y0 y1 y2} {K : PUnit → sProp (MT nD τ sig Unit (Elt F) ℕ (UR sig nD τ) ℕ)} :
    iprop(owns c arg1 fullShare x0 ∗ owns c arg2 fullShare x1 ∗ owns c arg3 fullShare y0 ∗ owns c arg4 fullShare y1 ∗ owns c arg5 fullShare y2
        ∗ (iprop(owns c arg1 fullShare x0 ∗ owns c arg2 fullShare x1 ∗ owns c arg3 fullShare (out2_2 x0 x1) ∗ owns c arg4 fullShare (out2_3 x0 x1)
            ∗ owns c arg5 fullShare (out2_4 x0 x1)) -∗ K ⟨⟩))
      ⊢ wp frame (wpE (defs₀ (F := F)) Variants.none c none) E (cc2__x_combine_kernel i arg1 harg1 arg2 harg2 arg3 harg3 arg4 harg4 arg5 harg5) K := by
  simp only [cc2__x_combine_kernel_eq_skeleton]; unfold cc2__x_combine_kernel_skel
  unfold owns
  iintro ⟨⟨%f0, %hf0, H0⟩, ⟨%f1, %hf1, H1⟩, ⟨%f2, -, H2⟩, ⟨%f3, -, H3⟩, ⟨%f4, -, H4⟩, Hk⟩
  subst hf0 hf1
  sl_exec
  sl_step
  iapply Hk
  isplitl [H0]; rotate_left; isplitl [H1]; rotate_left; isplitl [H2]; rotate_left; isplitl [H3]; rotate_left
  all_goals iexists _; isplitr; swap; iassumption; ipureintro
  all_goals first | exact View.read_writes_eq_canon _ _ _ (View.cover_of_tiled _ (Shape.size _) (by rfl)) | rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
    | ⟨4, _⟩ => out2_4 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t
    = out2_2 (iblk2 V c 0 t) (iblk2 V c 1 t) := by dsimp only [dat2]
theorem after2_3 (c : Dev nD) (t : Fin cfg2.N) : (dat2 V c).after 3 t
    = out2_3 (iblk2 V c 0 t) (iblk2 V c 1 t) := by dsimp only [dat2]
theorem after2_4 (c : Dev nD) (t : Fin cfg2.N) : (dat2 V c).after 4 t
    = out2_4 (iblk2 V c 0 t) (iblk2 V c 1 t) := by dsimp only [dat2]

/-- At every grid point each input is its block, so the body's triple gives the obligation there. -/
theorem body_obligation2 (c : Dev nD) : BodyObligation (dat2 (F := F) V c) (defs₀ (F := F)) Variants.none () Set.univ := fun t => by
  have b0 : ∀ d, (dat2 V c).before 0 t d = iblk2 V c 0 t :=
    (dat2 V c).before_in_eq_fetched 0 rfl (fun _ => rfl) (fun _ _ _ => rfl) (fun _ => rfl) t
  have b1 : ∀ d, (dat2 V c).before 1 t d = iblk2 V c 1 t :=
    (dat2 V c).before_in_eq_fetched 1 rfl (fun _ => rfl) (fun _ _ _ => rfl) (fun _ => rfl) t
  rw [bigSep_W2, bigSep_W2]
  simp only [b0, b1]
  rw [show (dat2 V c).owesAt () t.succ = (dat2 V c).owesAt () t.castSucc from rfl]
  dsimp only [dat2]
  show _ ⊢ wp frame _ _ (bodyAt2 t) _
  iintro ⟨HΦ, Ho, ⟨%d0, H0⟩, ⟨%d1, H1⟩, ⟨%d2, H2⟩, ⟨%d3, H3⟩, ⟨%d4, H4⟩⟩
  iapply sound_kernel2
  isplitl [H0]; rotate_left; isplitl [H1]; rotate_left; isplitl [H2]; rotate_left; isplitl [H3]; rotate_left; isplitl [H4]; rotate_left
  iintro ⟨H0, H1, H2, H3, H4⟩
  isplitl [HΦ]; rotate_left; isplitl [Ho]; rotate_left; isplitl [H0]; rotate_left; isplitl [H1]; rotate_left; isplitl [H2]; rotate_left; isplitl [H3]; rotate_left
  all_goals try iassumption

end Cert.KernelIdeal.Hand

end
-- ==== Proof.KI.Region3.lean ====
/- A normalisation launch: each 10000-row block less the mean row, scaled by the scale row over the root of the variance row plus a constant, shifted by the shift row, then its positive part. -/
import proofs.«418560_j60430189855387_3_alg».proof.Proof.Gen.KernelIdeal.Launch
import proofs.«418560_j60430189855387_3_alg».proof.Proof.Gen.KernelIdeal.Skeleton
import proofs.«418560_j60430189855387_3_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S10000x128 := Rect.unit (s := S10000x128) ![0, 0] S10000x128.size inb_S10000x128_S10000x128_0_0
abbrev r3_b : Rect S1x128 := Rect.unit (s := S1x128) ![0, 0] S1x128.size inb_S1x128_S1x128_0_0

def out3_5 (x0 : Vec F S10000x128 .f32) (x1 x2 x3 x4 : Vec F S1x128 .f32) : Vec F S10000x128 .f32 :=
  View.canon [⟨r3_a, k3_pay1 (View.ld x0 r3_a) (View.ld x1 r3_b) (View.ld x2 r3_b) (View.ld x3 r3_b) (View.ld x4 r3_b)⟩]

/-- The body's triple: the inputs are unchanged and each output is its `out3_w` of the inputs, whatever it was. -/
theorem sound_kernel3 {c : Dev nD} {E i arg1 harg1 arg2 harg2 arg3 harg3 arg4 harg4 arg5 harg5 arg6 harg6}
    {x0 x1 x2 x3 x4 y0} {K : PUnit → sProp (MT nD τ sig Unit (Elt F) ℕ (UR sig nD τ) ℕ)} :
    iprop(owns c arg1 fullShare x0 ∗ owns c arg2 fullShare x1 ∗ owns c arg3 fullShare x2 ∗ owns c arg4 fullShare x3 ∗ owns c arg5 fullShare x4
        ∗ owns c arg6 fullShare y0
        ∗ (iprop(owns c arg1 fullShare x0 ∗ owns c arg2 fullShare x1 ∗ owns c arg3 fullShare x2 ∗ owns c arg4 fullShare x3 ∗ owns c arg5 fullShare x4
            ∗ owns c arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, -, H5⟩, Hk⟩
  subst hf0 hf1 hf2 hf3 hf4
  sl_exec
  sl_step
  iapply Hk
  isplitl [H0]; rotate_left; isplitl [H1]; rotate_left; isplitl [H2]; rotate_left; isplitl [H3]; rotate_left; isplitl [H4]; rotate_left
  all_goals iexists _; isplitr; swap; iassumption; ipureintro
  all_goals first | exact View.read_writes_eq_canon _ _ _ (View.cover_of_tiled _ (Shape.size _) (by rfl)) | rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- At every grid point each input is its block, so the body's triple gives the obligation there. -/
theorem body_obligation3 (c : Dev nD) : BodyObligation (dat3 (F := F) V c) (defs₀ (F := F)) Variants.none () Set.univ := fun t => by
  have b0 : ∀ d, (dat3 V c).before 0 t d = iblk3 V c 0 t :=
    (dat3 V c).before_in_eq_fetched 0 rfl (fun _ => rfl) (fun _ _ _ => rfl) (fun _ => rfl) t
  have b1 : ∀ d, (dat3 V c).before 1 t d = iblk3 V c 1 t :=
    (dat3 V c).before_in_eq_fetched 1 rfl (fun _ => rfl) (fun _ _ _ => rfl) (fun _ => rfl) t
  have b2 : ∀ d, (dat3 V c).before 2 t d = iblk3 V c 2 t :=
    (dat3 V c).before_in_eq_fetched 2 rfl (fun _ => rfl) (fun _ _ _ => rfl) (fun _ => rfl) t
  have b3 : ∀ d, (dat3 V c).before 3 t d = iblk3 V c 3 t :=
    (dat3 V c).before_in_eq_fetched 3 rfl (fun _ => rfl) (fun _ _ _ => rfl) (fun _ => rfl) t
  have b4 : ∀ d, (dat3 V c).before 4 t d = iblk3 V c 4 t :=
    (dat3 V c).before_in_eq_fetched 4 rfl (fun _ => rfl) (fun _ _ _ => rfl) (fun _ => rfl) t
  rw [bigSep_W3, bigSep_W3]
  simp only [b0, b1, b2, b3, b4]
  rw [show (dat3 V c).owesAt () t.succ = (dat3 V c).owesAt () t.castSucc from rfl]
  dsimp only [dat3]
  show _ ⊢ wp frame _ _ (bodyAt3 t) _
  iintro ⟨HΦ, Ho, ⟨%d0, H0⟩, ⟨%d1, H1⟩, ⟨%d2, H2⟩, ⟨%d3, H3⟩, ⟨%d4, H4⟩, ⟨%d5, H5⟩⟩
  iapply sound_kernel3
  isplitl [H0]; rotate_left; isplitl [H1]; rotate_left; isplitl [H2]; rotate_left; isplitl [H3]; rotate_left; isplitl [H4]; rotate_left; isplitl [H5]; rotate_left
  iintro ⟨H0, H1, H2, H3, H4, H5⟩
  isplitl [HΦ]; rotate_left; isplitl [Ho]; rotate_left; isplitl [H0]; rotate_left; isplitl [H1]; rotate_left; isplitl [H2]; rotate_left; isplitl [H3]; rotate_left; isplitl [H4]; rotate_left
  all_goals try iassumption

end Cert.KernelIdeal.Hand

end
-- ==== Proof.KI.Region4.lean ====
/- The last launch: the normalisation of the launch before it, on the other array's 80 blocks. -/
import proofs.«418560_j60430189855387_3_alg».proof.Proof.Gen.KernelIdeal.Launch
import proofs.«418560_j60430189855387_3_alg».proof.Proof.Gen.KernelIdeal.Points
import proofs.«418560_j60430189855387_3_alg».proof.Proof.KI.Region3

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S10000x128 := Rect.unit (s := S10000x128) ![0, 0] S10000x128.size inb_S10000x128_S10000x128_0_0
abbrev r4_b : Rect S1x128 := Rect.unit (s := S1x128) ![0, 0] S1x128.size inb_S1x128_S1x128_0_0

def out4_5 (x0 : Vec F S10000x128 .f32) (x1 x2 x3 x4 : Vec F S1x128 .f32) : Vec F S10000x128 .f32 :=
  View.canon [⟨r4_a, k4_pay1 (View.ld x0 r4_a) (View.ld x1 r4_b) (View.ld x2 r4_b) (View.ld x3 r4_b) (View.ld x4 r4_b)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := rfl

theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

/-- At every grid point each input is its block, so the body's triple gives the obligation there. -/
theorem body_obligation4 (c : Dev nD) : BodyObligation (dat4 (F := F) V c) (defs₀ (F := F)) Variants.none () Set.univ := fun t => by
  have b0 : ∀ d, (dat4 V c).before 0 t d = iblk4 V c 0 t :=
    (dat4 V c).before_in_eq_fetched 0 rfl (fun _ => rfl) (fun _ _ _ => rfl) (fun _ => rfl) t
  have b1 : ∀ d, (dat4 V c).before 1 t d = iblk4 V c 1 t :=
    (dat4 V c).before_in_eq_fetched 1 rfl (fun _ => rfl) (fun _ _ _ => rfl) (fun _ => rfl) t
  have b2 : ∀ d, (dat4 V c).before 2 t d = iblk4 V c 2 t :=
    (dat4 V c).before_in_eq_fetched 2 rfl (fun _ => rfl) (fun _ _ _ => rfl) (fun _ => rfl) t
  have b3 : ∀ d, (dat4 V c).before 3 t d = iblk4 V c 3 t :=
    (dat4 V c).before_in_eq_fetched 3 rfl (fun _ => rfl) (fun _ _ _ => rfl) (fun _ => rfl) t
  have b4 : ∀ d, (dat4 V c).before 4 t d = iblk4 V c 4 t :=
    (dat4 V c).before_in_eq_fetched 4 rfl (fun _ => rfl) (fun _ _ _ => rfl) (fun _ => rfl) t
  rw [bigSep_W4, bigSep_W4]
  simp only [b0, b1, b2, b3, b4]
  rw [show (dat4 V c).owesAt () t.succ = (dat4 V c).owesAt () t.castSucc from rfl]
  dsimp only [dat4]
  rw [show @out4_5 F _ = out3_5 from rfl]
  show _ ⊢ wp frame _ _ (cc3__bn_relu_kernel (grid3.coords ⟨0, by decide⟩) _ (hstage4_0 _) _ (hstage4_1 _) _ (hstage4_2 _) _ (hstage4_3 _)
    _ (hstage4_4 _) _ (hstage4_5 _)) _
  iintro ⟨HΦ, Ho, ⟨%d0, H0⟩, ⟨%d1, H1⟩, ⟨%d2, H2⟩, ⟨%d3, H3⟩, ⟨%d4, H4⟩, ⟨%d5, H5⟩⟩
  iapply sound_kernel3
  isplitl [H0]; rotate_left; isplitl [H1]; rotate_left; isplitl [H2]; rotate_left; isplitl [H3]; rotate_left; isplitl [H4]; rotate_left; isplitl [H5]; rotate_left
  iintro ⟨H0, H1, H2, H3, H4, H5⟩
  isplitl [HΦ]; rotate_left; isplitl [Ho]; rotate_left; isplitl [H0]; rotate_left; isplitl [H1]; rotate_left; isplitl [H2]; rotate_left; isplitl [H3]; rotate_left; isplitl [H4]; rotate_left
  all_goals try iassumption

end Cert.KernelIdeal.Hand

end
-- ==== Proof.KI.Run.lean ====
/- The run of the whole program as steps between boundaries: a host stretch rewrites the buffers it writes, a launch the arrays of its
   output windows; every other buffer is carried, so the arguments end as launched and the results hold what the last two launches wrote. -/
import proofs.«418560_j60430189855387_3_alg».proof.Proof.Gen.KernelIdeal.Regions
import proofs.«418560_j60430189855387_3_alg».proof.Proof.KI.Region0
import proofs.«418560_j60430189855387_3_alg».proof.Proof.KI.Region1
import proofs.«418560_j60430189855387_3_alg».proof.Proof.KI.Region2
import proofs.«418560_j60430189855387_3_alg».proof.Proof.KI.Region3
import proofs.«418560_j60430189855387_3_alg».proof.Proof.KI.Region4
import proofs.«418560_j60430189855387_3_alg».proof.Proof.LibRunSteps

noncomputable section

namespace Cert.KernelIdeal.Hand

open Cert.KernelIdeal Cert.KernelIdeal.Gen Cert.LibRunSteps
open Idealize.ShloMosaic Idealize.ShloMosaic.TcCoe Idealize.SL.BI
open Idealize.ShloMosaic.Pipeline (Dat)

variable {F : FTy → Type} [FloatOps F]

variable (m : (ℓ : Loc nD τ sig) → Buf (Elt F) ℓ) (ρ : Dev nD → PrngReg)

abbrev W0 : Dev nD → Valuation τ sig (Elt F) := fun c b => m (c, b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_keep (c : Dev nD) (b : Ref sig .tc) (h : b ∉ hostOps0_W) : W1 m c (Proc.devRef .tc b) = W0 m c (Proc.devRef .tc b) :=
  StableHlo.after_of_writes_sub hostOps0 _ hostOps0_writes h

def W2 (c : Dev nD) : Valuation τ sig (Elt F) := aft (dat0 (V1 m)) (W1 m) c
theorem W2_arr (c : Dev nD) (w : Fin cfg0.W) :
    W2 m c (Proc.devRef .tc (Pipeline.arrRef spec0 w)) = (dat0 (V1 m) c).arrAt w cfg0.N := aft_arr _ _ launch0.win.arr_inj c w
abbrev outs0 : List (Ref sig .tc) := [main_v7]
theorem W2_keep (c : Dev nD) (b : Ref sig .tc) (h : b ∉ outs0) : W2 m c (Proc.devRef .tc b) = W1 m c (Proc.devRef .tc b) :=
  aft_keep _ _ launch0.win.arr_inj (A_eq0 (V1 m)) outs0 (by decide) c b h

abbrev W3 : Dev nD → Valuation τ sig (Elt F) := fun c => StableHlo.after hostOps1 (W2 m c)
theorem W3_keep (c : Dev nD) (b : Ref sig .tc) (h : b ∉ hostOps1_W) : W3 m c (Proc.devRef .tc b) = W2 m c (Proc.devRef .tc b) :=
  StableHlo.after_of_writes_sub hostOps1 _ hostOps1_writes h

abbrev W4 : Dev nD → Valuation τ sig (Elt F) := fun c => StableHlo.after hostOps1_1 (W3 m c)
theorem W4_keep (c : Dev nD) (b : Ref sig .tc) (h : b ∉ hostOps1_1_W) : W4 m c (Proc.devRef .tc b) = W3 m c (Proc.devRef .tc b) :=
  StableHlo.after_of_writes_sub hostOps1_1 _ hostOps1_1_writes h

abbrev W5 : Dev nD → Valuation τ sig (Elt F) := fun c => StableHlo.after hostOps1_2 (W4 m c)
theorem W5_keep (c : Dev nD) (b : Ref sig .tc) (h : b ∉ hostOps1_2_W) : W5 m c (Proc.devRef .tc b) = W4 m c (Proc.devRef .tc b) :=
  StableHlo.after_of_writes_sub hostOps1_2 _ hostOps1_2_writes h

abbrev W6 : Dev nD → Valuation τ sig (Elt F) := fun c => StableHlo.after hostOps1_3 (W5 m c)
theorem W6_keep (c : Dev nD) (b : Ref sig .tc) (h : b ∉ hostOps1_3_W) : W6 m c (Proc.devRef .tc b) = W5 m c (Proc.devRef .tc b) :=
  StableHlo.after_of_writes_sub hostOps1_3 _ hostOps1_3_writes h

abbrev W7 : Dev nD → Valuation τ sig (Elt F) := fun c => StableHlo.after hostOps1_4 (W6 m c)
abbrev V7 : (c : Dev nD) → (b : Ref sig .tc) → Buf (Elt F) ((c : Thread nD τ).loc b) := fun c b => W7 m c b
theorem W7_keep (c : Dev nD) (b : Ref sig .tc) (h : b ∉ hostOps1_4_W) : W7 m c (Proc.devRef .tc b) = W6 m c (Proc.devRef .tc b) :=
  StableHlo.after_of_writes_sub hostOps1_4 _ hostOps1_4_writes h

def W8 (c : Dev nD) : Valuation τ sig (Elt F) := aft (dat1 (V7 m)) (W7 m) c
theorem W8_arr (c : Dev nD) (w : Fin cfg1.W) :
    W8 m c (Proc.devRef .tc (Pipeline.arrRef spec1 w)) = (dat1 (V7 m) c).arrAt w cfg1.N := aft_arr _ _ launch1.win.arr_inj c w
abbrev outs1 : List (Ref sig .tc) := [main_v19_0, main_v19_1, main_v19_2, main_v19_3, main_v19_4]
theorem W8_keep (c : Dev nD) (b : Ref sig .tc) (h : b ∉ outs1) : W8 m c (Proc.devRef .tc b) = W7 m c (Proc.devRef .tc b) :=
  aft_keep _ _ launch1.win.arr_inj (A_eq1 (V7 m)) outs1 (by decide) c b h

abbrev W9 : Dev nD → Valuation τ sig (Elt F) := fun c => StableHlo.after hostOps2 (W8 m c)
abbrev V9 : (c : Dev nD) → (b : Ref sig .tc) → Buf (Elt F) ((c : Thread nD τ).loc b) := fun c b => W9 m c b
theorem W9_keep (c : Dev nD) (b : Ref sig .tc) (h : b ∉ hostOps2_W) : W9 m c (Proc.devRef .tc b) = W8 m c (Proc.devRef .tc b) :=
  StableHlo.after_of_writes_sub hostOps2 _ hostOps2_writes h

def W10 (c : Dev nD) : Valuation τ sig (Elt F) := aft (dat2 (V9 m)) (W9 m) c
theorem W10_arr (c : Dev nD) (w : Fin cfg2.W) :
    W10 m c (Proc.devRef .tc (Pipeline.arrRef spec2 w)) = (dat2 (V9 m) c).arrAt w cfg2.N := aft_arr _ _ launch2.win.arr_inj c w
abbrev outs2 : List (Ref sig .tc) := [main_v41_0, main_v41_1, main_v41_2]
theorem W10_keep (c : Dev nD) (b : Ref sig .tc) (h : b ∉ outs2) : W10 m c (Proc.devRef .tc b) = W9 m c (Proc.devRef .tc b) :=
  aft_keep _ _ launch2.win.arr_inj (A_eq2 (V9 m)) outs2 (by decide) c b h

abbrev W11 : Dev nD → Valuation τ sig (Elt F) := fun c => StableHlo.after hostOps3 (W10 m c)
abbrev V11 : (c : Dev nD) → (b : Ref sig .tc) → Buf (Elt F) ((c : Thread nD τ).loc b) := fun c b => W11 m c b
theorem W11_keep (c : Dev nD) (b : Ref sig .tc) (h : b ∉ hostOps3_W) : W11 m c (Proc.devRef .tc b) = W10 m c (Proc.devRef .tc b) :=
  StableHlo.after_of_writes_sub hostOps3 _ hostOps3_writes h

def W12 (c : Dev nD) : Valuation τ sig (Elt F) := aft (dat3 (V11 m)) (W11 m) c
theorem W12_arr (c : Dev nD) (w : Fin cfg3.W) :
    W12 m c (Proc.devRef .tc (Pipeline.arrRef spec3 w)) = (dat3 (V11 m) c).arrAt w cfg3.N := aft_arr _ _ launch3.win.arr_inj c w
abbrev outs3 : List (Ref sig .tc) := [main_v58]
theorem W12_keep (c : Dev nD) (b : Ref sig .tc) (h : b ∉ outs3) : W12 m c (Proc.devRef .tc b) = W11 m c (Proc.devRef .tc b) :=
  aft_keep _ _ launch3.win.arr_inj (A_eq3 (V11 m)) outs3 (by decide) c b h

abbrev W13 : Dev nD → Valuation τ sig (Elt F) := fun c => StableHlo.after hostOps4 (W12 m c)
abbrev V13 : (c : Dev nD) → (b : Ref sig .tc) → Buf (Elt F) ((c : Thread nD τ).loc b) := fun c b => W13 m c b
theorem W13_keep (c : Dev nD) (b : Ref sig .tc) (h : b ∉ hostOps4_W) : W13 m c (Proc.devRef .tc b) = W12 m c (Proc.devRef .tc b) :=
  StableHlo.after_of_writes_sub hostOps4 _ hostOps4_writes h

def W14 (c : Dev nD) : Valuation τ sig (Elt F) := aft (dat4 (V13 m)) (W13 m) c
abbrev outs4 : List (Ref sig .tc) := [main_v63]
theorem W14_keep (c : Dev nD) (b : Ref sig .tc) (h : b ∉ outs4) : W14 m c (Proc.devRef .tc b) = W13 m c (Proc.devRef .tc b) :=
  aft_keep _ _ launch4.win.arr_inj (A_eq4 (V13 m)) outs4 (by decide) c b h

/-- Every launch's proof data, each at the contents its launch is entered with. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
  | ⟨2, _⟩ => fun c => dat2 (V9 m) c
  | ⟨3, _⟩ => fun c => dat3 (V11 m) c
  | ⟨4, _⟩ => fun c => dat4 (V13 m) c
abbrev segs : List (Pipeline.Seg (pcfgs (F := F)) adm (pdats m) () defs₀ Variants.none L lv) :=
  [ .host (hseg cfgs defs₀ hostOps0 hostOps0_sub hostOps0_fresh (W0 m)),
    .region (reg cfgs (pdats m) defs₀ 0 launch0 (W1 m) (body_obligation0 (V1 m)) (A_eq0 (V1 m))),
    .host (hseg cfgs defs₀ hostOps1 hostOps1_sub hostOps1_fresh (W2 m)),
    .host (hseg cfgs defs₀ hostOps1_1 hostOps1_1_sub hostOps1_1_fresh (W3 m)),
    .host (hseg cfgs defs₀ hostOps1_2 hostOps1_2_sub hostOps1_2_fresh (W4 m)),
    .host (hseg cfgs defs₀ hostOps1_3 hostOps1_3_sub hostOps1_3_fresh (W5 m)),
    .host (hseg cfgs defs₀ hostOps1_4 hostOps1_4_sub hostOps1_4_fresh (W6 m)),
    .region (reg cfgs (pdats m) defs₀ 1 launch1 (W7 m) (body_obligation1 (V7 m)) (A_eq1 (V7 m))),
    .host (hseg cfgs defs₀ hostOps2 hostOps2_sub hostOps2_fresh (W8 m)),
    .region (reg cfgs (pdats m) defs₀ 2 launch2 (W9 m) (body_obligation2 (V9 m)) (A_eq2 (V9 m))),
    .host (hseg cfgs defs₀ hostOps3 hostOps3_sub hostOps3_fresh (W10 m)),
    .region (reg cfgs (pdats m) defs₀ 3 launch3 (W11 m) (body_obligation3 (V11 m)) (A_eq3 (V11 m))),
    .host (hseg cfgs defs₀ hostOps4 hostOps4_sub hostOps4_fresh (W12 m)),
    .region (reg cfgs (pdats m) defs₀ 4 launch4 (W13 m) (body_obligation4 (V13 m)) (A_eq4 (V13 m))) ]

/-- Every final memory holds each buffer at the last boundary's contents. -/
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W14 m c (Proc.devRef .tc b)) :=
  run_held cfgs (pdats m) defs₀ cellOf_inj m ρ main (segs m) main_chain (show ([0, 1, 2, 3, 4] : List (Fin 5)).Nodup by decide) (W14 m)
    (by repeat (refine ⟨fun _ => .rfl, ?_⟩)
        exact fun _ => sep_assoc')

/-- A buffer that no host operation and no launch writes is read back from such a final memory as launched. -/
theorem kept_end (c : Dev nD) {mem : (ℓ : Loc nD τ sig) → Buf (Elt F) ℓ}
    (hm : ∀ b : Ref sig .tc, ¬ (Proc.devRef .tc b : DevRef τ sig).isScoped → mem ((c.tc : Thread nD τ).loc b) = W14 m c (Proc.devRef .tc b))
    (b : Ref sig .tc) (hu : ¬ (Proc.devRef .tc b : DevRef τ sig).isScoped)
    (h : b ∉ hostOps0_W ++ outs0 ++ hostOps1_W ++ hostOps1_1_W ++ hostOps1_2_W ++ hostOps1_3_W ++ hostOps1_4_W ++ outs1 ++ hostOps2_W ++ outs2 ++ hostOps3_W ++ outs3 ++ hostOps4_W ++ outs4) :
    mem ((c.tc : Thread nD τ).loc b) = m ((c.tc : Thread nD τ).loc b) := by
  simp only [List.mem_append, not_or] at h
  obtain ⟨⟨⟨⟨⟨⟨⟨⟨⟨⟨⟨⟨⟨h0, g0⟩, h1⟩, h11⟩, h12⟩, h13⟩, h14⟩, g1⟩, h2⟩, g2⟩, h3⟩, g3⟩, h4⟩, g4⟩ := h
  refine (hm b hu).trans ?_
  rw [W14_keep m c b g4, W13_keep m c b h4, W12_keep m c b g3, W11_keep m c b h3, W10_keep m c b g2, W9_keep m c b h2,
    W8_keep m c b g1, W7_keep m c b h14, W6_keep m c b h13, W5_keep m c b h12, W4_keep m c b h11, W3_keep m c b h1,
    W2_keep m c b g0, W1_keep m c b h0]

/-- Every argument array holds in `mem`, at `c`, what it held at launch. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)

/-- The two result arrays end at what the last two launches wrote back, the arguments as launched. -/
theorem run_results : θ_run defs (onTc (τ := τ) (main (F := F))) ⟨m, fun _ => 0, ρ⟩ (fun r => ∀ c : Dev nD,
      r.2.mem ((c.tc : Thread nD τ).loc main_v58) = (dat3 (V11 m) c).arrAt 5 cfg3.N
      ∧ r.2.mem ((c.tc : Thread nD τ).loc main_v63) = (dat4 (V13 m) c).arrAt 5 cfg4.N ∧ ArgsKept m r.2.mem c) :=
  (θ_run defs _ _).mono (fun r h c => by
    refine ⟨(h c main_v58 (by decide)).trans (((W14_keep m c main_v58 (by decide)).trans (W13_keep m c main_v58 (by decide))).trans (W12_arr m c 5)),
      (h c main_v63 (by decide)).trans (aft_arr _ _ launch4.win.arr_inj c 5), ?_⟩
    and_intros <;> exact kept_end m c (h c) _ (by decide) (by decide)) (run_all m ρ)

/-- Every argument array ends as launched. -/
theorem frame : θ_run defs (onTc (τ := τ) (main (F := F))) ⟨m, fun _ => 0, ρ⟩ (fun r => ∀ c : Dev nD, ArgsKept m r.2.mem c) :=
  (θ_run defs _ _).mono (fun r h c => (h c).2.2) (run_results m ρ)

end Cert.KernelIdeal.Hand

end
-- ==== Proof.Spec.lean ====
/-
  One layer of a gated graph network over the extended reals: five affine maps of the node and edge features, a gated
  message on each edge, its gated mean over the edges arriving at a node, and a column normalisation cut at zero.
-/
import Idealize.ShloMosaic.Lib.ValueIdx
import Idealize.ShloMosaic.PureOps.Ideal
import Idealize.ShloMosaic.PureOps.Ideal.Laws
import Idealize.ShloMosaic.PureOps.Contract

noncomputable section

namespace Cert.Spec

open Idealize.ShloMosaic Idealize.ShloMosaic.ValueIdx

abbrev S2 (n m : ℕ) : Shape := ⟨2, ![n, m]⟩
abbrev S1 (m : ℕ) : Shape := ⟨1, ![m]⟩
abbrev A2 (n m : ℕ) := (S2 n m).Idx → EReal
abbrev A1 (m : ℕ) := (S1 m).Idx → EReal
abbrev I2 (n m : ℕ) := (S2 n m).Idx → BitVec 32

/-- No entry is an infinity. -/
def Finite {s : Shape} (a : s.Idx → EReal) : Prop := ∀ i, a i ≠ ⊤ ∧ a i ≠ ⊥

/-- Every endpoint, read signed, is a node: 0 ≤ i < 50000. -/
def InRange (ei : (S2 2 800000).Idx → BitVec 32) : Prop := ∀ i, 0 ≤ (ei i).toInt ∧ (ei i).toInt < 50000

/-- Row a of the 2 x 800000 endpoint table as a column (row 0 the sources, row 1 the targets). -/
def endpoint (a : Fin 2) (ei : (S2 2 800000).Idx → BitVec 32) : I2 800000 1 := fun i => ei (ix2 a (i 0))

/-- (x W + b)[p, q] = ∑ k, x[p, k] · W[k, q] + b[q]. -/
def lin {n : ℕ} (x : A2 n 128) (W : A2 128 128) (b : A1 128) : A2 n 128 :=
  fun i => (∑ k : Fin 128, x (ix2 (i 0) k) * W (ix2 k (i 1))) + b (ix1 (i 1))

theorem lin_apply {n : ℕ} (x : A2 n 128) (W : A2 128 128) (b : A1 128) (p : Fin n) (q : Fin 128) :
    lin x W b (ix2 p q) = (∑ k : Fin 128, x (ix2 p k) * W (ix2 k q)) + b (ix1 q) := rfl

/-- One whole row of a 50000 x 128 table per edge. -/
def rowsOf : GatherDims (S2 50000 128) (S2 800000 1) (S2 800000 128) where
  offsetDims := [1]
  collapsedSliceDims := [0]
  operandBatchingDims := []
  startIndicesBatchingDims := []
  startIndexMap := [0]
  indexVectorDim := 1
  sliceSizes := ![1, 128]
  wf := by decide

/-- Each edge's row added into the row of one node. -/
def intoRows : ScatterDims (S2 50000 128) (S2 800000 1) (S2 800000 128) where
  updateWindowDims := [1]
  insertedWindowDims := [0]
  scatterDimsToOperandDims := [0]
  indexVectorDim := 1
  wf := by decide

def take (T : A2 50000 128) (idx : I2 800000 1) : A2 800000 128 := Host.gather rowsOf T idx

/-- Per node, the sum of the rows of the edges whose index names it. -/
def accum (idx : I2 800000 1) (u : A2 800000 128) : A2 50000 128 := Ideal.hostScatterAdd intoRows (fun _ => 0) idx u

def msg (DxD ExS Ce : A2 800000 128) : A2 800000 128 := fun i => DxD i + ExS i + Ce i

/-- 1 / (1 + e^(-v)), entrywise. -/
def gate (v : A2 800000 128) : A2 800000 128 := fun i => Ideal.logistic (v i)

def gated (s BxS : A2 800000 128) : A2 800000 128 := fun i => s i * BxS i

def aggEps : EReal := Ideal.ofBits .f32 0x358637BD#32
def bnEps : EReal := Ideal.ofBits .f32 0x3727C5AC#32

def aggr (num den : A2 50000 128) : A2 50000 128 := fun i => Ideal.div (num i) (den i + aggEps)

def upd (Ax ag : A2 50000 128) : A2 50000 128 := fun i => Ax i + ag i

def colMean {n : ℕ} (N : EReal) (h : A2 n 128) : A1 128 := fun j => Ideal.div (∑ p : Fin n, h (ix2 p (j 0))) N

/-- The mean of the squares less the squared mean. -/
def colVarMoments {n : ℕ} (N : EReal) (h : A2 n 128) : A1 128 :=
  fun j => Ideal.div (∑ p : Fin n, h (ix2 p (j 0)) * h (ix2 p (j 0))) N - colMean N h j * colMean N h j

/-- The mean of the squared deviations from the mean. -/
def colVarCentred {n : ℕ} (N : EReal) (h : A2 n 128) : A1 128 :=
  fun j => Ideal.div (∑ p : Fin n, (h (ix2 p (j 0)) - colMean N h (ix1 (j 0))) * (h (ix2 p (j 0)) - colMean N h (ix1 (j 0)))) N

/-- max(g · (h − mu) / sqrt(var + eps) + b, 0), column by column. -/
def normRelu {n : ℕ} (h : A2 n 128) (mu var g b : A1 128) : A2 n 128 :=
  fun i => max (g (ix1 (i 1)) * (h i - mu (ix1 (i 1))) * Ideal.rsqrt (var (ix1 (i 1)) + bnEps) + b (ix1 (i 1))) 0

/-- 50000 and 800000 as single-precision words. -/
def nNodes : EReal := Ideal.ofBits .f32 0x47435000#32
def nEdges : EReal := Ideal.ofBits .f32 0x49435000#32

section Layer
variable (x : A2 50000 128) (e : A2 800000 128) (dst src : I2 800000 1)
  (WA WB WC WD WE : A2 128 128) (bA bB bC bD bE gx bx ge be : A1 128)

def eij : A2 800000 128 := msg (take (lin x WD bD) dst) (take (lin x WE bE) src) (lin e WC bC)

def hx : A2 50000 128 :=
  upd (lin x WA bA) (aggr (accum dst (gated (gate (eij x e dst src WC WD WE bC bD bE)) (take (lin x WB bB) src)))
    (accum dst (gate (eij x e dst src WC WD WE bC bD bE))))

def xOutMoments : A2 50000 128 :=
  let h := hx x e dst src WA WB WC WD WE bA bB bC bD bE
  normRelu h (colMean nNodes h) (colVarMoments nNodes h) gx bx
def xOutCentred : A2 50000 128 :=
  let h := hx x e dst src WA WB WC WD WE bA bB bC bD bE
  normRelu h (colMean nNodes h) (colVarCentred nNodes h) gx bx
def eOutMoments : A2 800000 128 :=
  let v := eij x e dst src WC WD WE bC bD bE
  normRelu v (colMean nEdges v) (colVarMoments nEdges v) ge be
def eOutCentred : A2 800000 128 :=
  let v := eij x e dst src WC WD WE bC bD bE
  normRelu v (colMean nEdges v) (colVarCentred nEdges v) ge be
end Layer

end Cert.Spec

end
-- ==== Proof.SpecForms.lean ====
/-
  A 1 x 128 row as a vector, the product against four weight matrices side by side, and the column sums of each block
  of R consecutive rows, repeated over the 8 rows of a tile.
-/
import proofs.«418560_j60430189855387_3_alg».proof.Proof.Spec

noncomputable section

namespace Cert.Spec

open Idealize.ShloMosaic Idealize.ShloMosaic.ValueIdx

abbrev S3 (a b c : ℕ) : Shape := ⟨3, ![a, b, c]⟩

def rowVec (a : (S2 1 128).Idx → EReal) : A1 128 := fun j => a (ix2 (0 : Fin 1) (j 0))

def linWide (x : A2 50000 128) (W : (S2 128 512).Idx → EReal) (b : (S2 1 512).Idx → EReal) : (S2 50000 512).Idx → EReal :=
  fun i => (∑ k : Fin 128, x (ix2 (i 0) k) * W (ix2 k (i 1))) + b (ix2 (0 : Fin 1) (i 1))

def blockSums (B R : ℕ) (h : A2 (B * R) 128) : (S3 B 8 128).Idx → EReal :=
  fun i => ∑ r : Fin R, h (ix2 ⟨(i 0).val * R + r.val, by
    have h0 : (i 0).val < B := (i 0).isLt
    have hr := r.isLt
    calc (i 0).val * R + r.val < (i 0).val * R + R := by omega
      _ = ((i 0).val + 1) * R := by ring
      _ ≤ B * R := Nat.mul_le_mul_right R h0⟩ (i 2))

def sq {n : ℕ} (h : A2 n 128) : A2 n 128 := fun i => h i * h i

end Cert.Spec

end
-- ==== Proof.LibLayout.lean ====
/-
  Reading lemmas, over any extents, for the host's broadcasts between a vector and a matrix with a unit axis, and for
  its rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- A coordinate kept by a broadcast is read where it stands; along an axis of extent 1 that is 0. -/
theorem kept_coord {a : ℕ} (p : Fin a) : p.val = if a = 1 then 0 else p.val := by
  split
  · have := p.isLt; omega
  · rfl

theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x (ix2 p u) (ix1 p) fun ax => match ax with
    | ⟨0, _⟩ => kept_coord p

theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply _ h x (ix2 u c) (ix1 c) fun ax => match ax with
    | ⟨0, _⟩ => kept_coord c

theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) :=
  broadcastInDim_apply _ h x (ix2 p c) (ix2 (0 : Fin 1) c) fun ax => match ax with
    | ⟨0, _⟩ => rfl
    | ⟨1, _⟩ => kept_coord c

theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The product of an m x k by a k x n matrix at (a, b) is the sum over c of A[a, c] · B[c, b]. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.KI.HostStages.lean ====
/- The host's layout steps read as the layer's functions: an endpoint row as a column of indices, a band of columns of the
   product against four matrices side by side, a row read back as a vector, the accumulation from zero, the gated mean. -/
import proofs.«418560_j60430189855387_3_alg».proof.KernelIdeal
import proofs.«418560_j60430189855387_3_alg».proof.Proof.Gen.KernelIdeal
import proofs.«418560_j60430189855387_3_alg».proof.Proof.SpecForms
import proofs.«418560_j60430189855387_3_alg».proof.Proof.LibLayout
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HostStages

open Cert.KernelIdeal Cert.KernelIdeal.Gen Cert.Spec Idealize.ShloMosaic Idealize.ShloMosaic.ValueIdx

theorem scatterAdd_eq_accum (h : S_.BroadcastsInDim S50000x128 ![]) (idx : IVec S800000x1 32) (u : FVec Ideal S800000x128 .f32) :
    Host.scatterAdd scatter_S50000x128_S800000x1_S800000x128_1_0_0_1
        (broadcastInDim S50000x128 ![] h (constant (F := Ideal) S_ .f32 0x00000000#32)) idx u = accum idx u := by
  unfold Host.scatterAdd accum
  rw [Ideal.hostScatterAdd_def, show scatter_S50000x128_S800000x1_S800000x128_1_0_0_1 = intoRows from rfl]
  congr 1
  funext i
  rw [broadcastInDim_scalar_apply, constant_apply, Ideal.ofBits_zero_f32]

theorem divf_eq_aggr (h : S_.BroadcastsInDim S50000x128 ![]) (num den : FVec Ideal S50000x128 .f32) :
    Host.divf num (addf den (broadcastInDim S50000x128 ![] h (constant (F := Ideal) S_ .f32 0x358637BD#32))) = aggr num den := by
  funext i
  rw [hostDivf_apply, addf_apply, broadcastInDim_scalar_apply, constant_apply]
  rfl

theorem rowVec_shapeCast (h : S128.ShapeCasts S1x128) (a : FVec Ideal S128 .f32) : rowVec (shapeCast S1x128 a h) = a := by
  funext j
  refine shapeCast_apply a h (ix2 (0 : Fin 1) (j 0)) j ?_
  rw [Shape.rowMajor_val_two, Shape.rowMajor_val_one]
  show (j 0).val = 0 * 128 + (j 0).val
  omega

/-- Row a of the endpoint table, cut out, flattened and stood up as a column. -/
theorem endpoint_of_slice (a : Fin 2) (h1 : S2x800000.Slices ![a.val, 0] S1x800000)
    (h2 : S1x800000.ShapeCasts S800000) (h3 : S800000.BroadcastsInDim S800000x1 ![0]) (ei : IVec S2x800000 32) :
    broadcastInDim S800000x1 ![0] h3 (shapeCast S800000 (extractStridedSlice S1x800000 ![a.val, 0] ei h1) h2) = endpoint a ei := by
  funext i
  obtain ⟨p, u, rfl⟩ : ∃ (p : Fin 800000) (u : Fin 1), i = ix2 p u := ⟨i 0, i 1, eq_ix2 i⟩
  rw [Cert.LibLayout.broadcastInDim_a_a1_apply]
  refine (shapeCast_apply _ h2 (ix1 p) (ix2 (0 : Fin 1) p) ?_).trans (slice2_axis0_apply _ ei h1 (0 : Fin 1) p a rfl)
  rw [Shape.rowMajor_val_two, Shape.rowMajor_val_one]
  show 0 * 800000 + p.val = p.val
  omega

/-- Four 128 x 128 matrices side by side, and four 128-vectors end to end as a row. -/
def catW (Ws : Fin 4 → A2 128 128) : (S2 128 512).Idx → EReal :=
  concatenate S128x512 1 [⟨S128x128, Ws 0⟩, ⟨S128x128, Ws 1⟩, ⟨S128x128, Ws 2⟩, ⟨S128x128, Ws 3⟩]
    concatenates_S128x128_S128x128_S128x128_S128x128_S128x512_d1
def catB (bs : Fin 4 → A1 128) : (S2 1 512).Idx → EReal :=
  shapeCast S1x512 (concatenate S512 0 [⟨S128, bs 0⟩, ⟨S128, bs 1⟩, ⟨S128, bs 2⟩, ⟨S128, bs 3⟩]
    concatenates_S128_S128_S128_S128_S512_d0) shapeCasts_S512_S1x512

theorem catW_apply (Ws : Fin 4 → A2 128 128) (j : Fin 4) (r q : Fin 128) (k : Fin 512) (hk : k.val = 128 * j.val + q.val) :
    catW Ws (ix2 r k) = Ws j (ix2 r q) := by
  unfold catW
  refine concatenate_apply_piece (1 : Fin S128x512.rank) _ _ (ix2 r k) j.val (by exact j.2) S128x128 (Ws j) ?_ rfl (128 * j.val) ?_
    (ix2 r q) (fun b hb => ?_) (hk.symm)
  · fin_cases j <;> rfl
  · fin_cases j <;> rfl
  · match b with
    | ⟨0, _⟩ => rfl
    | ⟨1, _⟩ => exact absurd rfl hb

theorem catB_apply (bs : Fin 4 → A1 128) (j : Fin 4) (q : Fin 128) (k : Fin 512) (hk : k.val = 128 * j.val + q.val) :
    catB bs (ix2 (0 : Fin 1) k) = bs j (ix1 q) := by
  unfold catB
  refine (shapeCast_apply _ _ (ix2 (0 : Fin 1) k) (ix1 k) ?_).trans ?_
  · rw [Shape.rowMajor_val_two, Shape.rowMajor_val_one]
    show k.val = 0 * 512 + k.val
    omega
  refine concatenate_apply_piece (0 : Fin S512.rank) _ _ (ix1 k) j.val (by exact j.2) S128 (bs j) ?_ rfl (128 * j.val) ?_
    (ix1 q) (fun b hb => ?_) (hk.symm)
  · fin_cases j <;> rfl
  · fin_cases j <;> rfl
  · match b with
    | ⟨0, _⟩ => exact absurd rfl hb

/-- Band j of the wide product is the product against matrix j plus bias j. -/
theorem proj (x : A2 50000 128) (Ws : Fin 4 → A2 128 128) (bs : Fin 4 → A1 128) (j : Fin 4)
    (h : S50000x512.Slices ![0, 128 * j.val] S50000x128) :
    extractStridedSlice S50000x128 ![0, 128 * j.val] (linWide x (catW Ws) (catB bs)) h = lin x (Ws j) (bs j) := by
  funext i
  obtain ⟨p, q, rfl⟩ : ∃ (p : Fin 50000) (q : Fin 128), i = ix2 p q := ⟨i 0, i 1, eq_ix2 i⟩
  rw [slice2_axis1_eq, lin_apply]
  show (∑ r : Fin 128, x (ix2 p r) * catW Ws (ix2 r _)) + catB bs (ix2 (0 : Fin 1) _) = _
  rw [catB_apply bs j q _ rfl]
  exact congrArg (· + _) (Finset.sum_congr rfl fun r _ => by rw [catW_apply Ws j r q _ rfl])

end Cert.KernelIdeal.HostStages

end
-- ==== Proof.KI.HostStats.lean ====
/- A column sum over all rows is the sum over the blocks of the blocks' column sums; divided by the row count it is the
   column mean, and the mean of the squares less the squared mean is the variance from the moments. -/
import proofs.«418560_j60430189855387_3_alg».proof.KernelIdeal
import proofs.«418560_j60430189855387_3_alg».proof.Proof.SpecForms
import Idealize.ShloMosaic.Lib.ValueLayout
import Idealize.ShloMosaic.Lib.IdealHost
import Idealize.ShloMosaic.PureOps.Ideal.Laws
import Mathlib.Logic.Equiv.Fin.Basic

noncomputable section

namespace Cert.KernelIdeal.HostStats

open Cert.KernelIdeal Cert.Spec Idealize.ShloMosaic Idealize.ShloMosaic.ValueIdx

theorem sum_blocks {M : Type*} [AddCommMonoid M] (B R : ℕ) (f : Fin (B * R) → M) :
    ∑ b : Fin B, ∑ r : Fin R, f ⟨b.val * R + r.val, by
      calc b.val * R + r.val < b.val * R + R := by have := r.isLt; omega
        _ = (b.val + 1) * R := by ring
        _ ≤ B * R := Nat.mul_le_mul_right R b.isLt⟩ = ∑ p : Fin (B * R), f p := by
  rw [← Equiv.sum_comp finProdFinEquiv f, Fintype.sum_prod_type]
  refine Finset.sum_congr rfl fun b _ => Finset.sum_congr rfl fun r _ => congrArg f (Fin.ext ?_)
  show b.val * R + r.val = r.val + R * b.val
  rw [Nat.mul_comm]; omega

variable {B : ℕ} (hs : (S3 B 8 128).Slices ![0, 0, 0] (S3 B 1 128)) (hc : (S3 B 1 128).ShapeCasts (S2 B 128))
  (hr : (S2 B 128).ReducesTo [0] (S1 128)) (hR : (S2 B 128).Reduces [0] (S1 128)) (h0 : 0 < S_.numel)
  (hb : S_.BroadcastsInDim (S1 128) (![] : Fin 0 → Fin (S1 128).rank))

include hR

/-- Row 0 of each tile, the unit axis dropped, summed over the blocks from zero. -/
theorem reduce_tiles (T : FVec Ideal (S3 B 8 128) .f32) (c : Fin 128) :
    Host.reduceAdd (shapeCast (S2 B 128) (extractStridedSlice (S3 B 1 128) ![0, 0, 0] T hs) hc)
        (constant (F := Ideal) S_ .f32 0x00000000#32) hr h0 (ix1 c)
      = ∑ b : Fin B, T (ix3 b (0 : Fin 8) c) := by
  rw [hostReduceAdd_apply, Ideal.hostReduceAdd_single hr hR, constant_apply, Ideal.ofBits_zero_f32, zero_add]
  refine Finset.sum_congr rfl fun b _ => ?_
  refine (shapeCast_apply _ hc _ (ix3 b (0 : Fin 1) c) ?_).trans ?_
  · rw [Shape.rowMajor_val_three, Shape.rowMajor_val_two]
    show (b.val * 1 + 0) * 128 + c.val = b.val * 128 + c.val
    omega
  · refine extractStridedSlice_apply _ T hs _ (ix3 b (0 : Fin 8) c) fun a => ?_
    match a with
    | ⟨0, _⟩ => show b.val = 0 + b.val; omega
    | ⟨1, _⟩ => show 0 = 0 + 0; rfl
    | ⟨2, _⟩ => show c.val = 0 + c.val; omega

/-- The sums over the blocks divided by the printed row count: the column mean. -/
theorem mean_chain (R : ℕ) (w : BitVec 32) (h : A2 (B * R) 128) :
    Host.divf (Host.reduceAdd (shapeCast (S2 B 128) (extractStridedSlice (S3 B 1 128) ![0, 0, 0] (blockSums B R h) hs) hc)
        (constant (F := Ideal) S_ .f32 0x00000000#32) hr h0)
      (broadcastInDim (S1 128) ![] hb (constant (F := Ideal) S_ .f32 w))
      = colMean (Ideal.ofBits .f32 w) h := by
  funext j
  obtain ⟨c, rfl⟩ : ∃ c : Fin 128, j = ix1 c := ⟨j 0, eq_ix1 j⟩
  rw [hostDivf_apply, reduce_tiles hs hc hr hR h0 _ c, broadcastInDim_scalar_apply, constant_apply]
  exact congrArg (Ideal.div · _) (sum_blocks B R fun p => h (ix2 p c))

omit hR in
/-- The mean of the squares less the squared mean. -/
theorem var_of_means {n : ℕ} (N : EReal) (h : A2 n 128) {a b : FVec Ideal (S1 128) .f32} (ha : a = colMean N h) (hb : b = colMean N (sq h)) :
    subf b (mulf a a) = colVarMoments N h := by
  subst ha hb; rfl

end Cert.KernelIdeal.HostStats

end
-- ==== Proof.KI.HostReads.lean ====
/- What each stretch of host operations leaves in the buffers a later step reads, as the layer's functions of what the
   stretch finds in the buffers it reads. -/
import proofs.«418560_j60430189855387_3_alg».proof.Proof.Gen.KernelIdeal.Launch
import proofs.«418560_j60430189855387_3_alg».proof.Proof.KI.HostStages
import proofs.«418560_j60430189855387_3_alg».proof.Proof.KI.HostStats
import Idealize.ShloMosaic.Lib.StableHlo.Run

noncomputable section

namespace Cert.KernelIdeal.Hand

open Cert.KernelIdeal Cert.KernelIdeal.Gen Cert.Spec HostStages HostStats
open Idealize.ShloMosaic Idealize.ShloMosaic.TcCoe Idealize.SL.Sem Idealize.ShloMosaic.StableHlo

variable (W : Valuation τ sig (Elt Ideal))

theorem ops0_v1 (h : S800000.BroadcastsInDim S800000x1 ![0]) :
    broadcastInDim S800000x1 ![0] h (after hostOps0 W main_v1) = endpoint 0 (W main_arg2) := by
  after_results
  exact endpoint_of_slice 0 _ _ h _
theorem ops0_v3 (h : S800000.BroadcastsInDim S800000x1 ![0]) :
    broadcastInDim S800000x1 ![0] h (after hostOps0 W main_v3) = endpoint 1 (W main_arg2) := by
  after_results
  exact endpoint_of_slice 1 _ _ h _
theorem ops0_v4 : after hostOps0 W main_v4 = catW ![W main_arg3, W main_arg5, W main_arg9, W main_arg11] := by
  after_results_simp
  rfl
theorem ops0_v6 : after hostOps0 W main_v6 = catB ![W main_arg4, W main_arg6, W main_arg10, W main_arg12] := by
  after_results_simp
  rfl

/-- Narrowing the format of a table changes no entry. -/
private theorem truncf_id {s : Shape} (a : FVec Ideal s .f32) (h : FTy.bits .bf16 < FTy.bits .f32) :
    (truncf .bf16 a h : FVec Ideal s .bf16) = a := rfl

section
variable {x : A2 50000 128} {Ws : Fin 4 → A2 128 128} {bs : Fin 4 → A1 128} (h : W main_v7 = linWide x (catW Ws) (catB bs))
include h
theorem ops1_v8 : after hostOps1 W main_v8 = lin x (Ws 0) (bs 0) := by
  after_results; rw [h]; exact proj x Ws bs 0 _
theorem ops1_v14 : after hostOps1 W main_v14 = lin x (Ws 1) (bs 1) := by
  after_results; rw [h]; exact (truncf_id _ _).trans (proj x Ws bs 1 _)
theorem ops1_v12 : after hostOps1 W main_v12 = lin x (Ws 2) (bs 2) := by
  after_results; rw [h]; exact (truncf_id _ _).trans (proj x Ws bs 2 _)
theorem ops1_v13 : after hostOps1 W main_v13 = lin x (Ws 3) (bs 3) := by
  after_results; rw [h]; exact (truncf_id _ _).trans (proj x Ws bs 3 _)
end

section
variable {T : A2 50000 128} {idx : I2 800000 1}
theorem ops11_v15 (hT : W main_v12 = T) (hi : ∀ h, broadcastInDim S800000x1 ![0] h (W main_v3) = idx) :
    after hostOps1_1 W main_v15 = take T idx := by
  subst hT; obtain rfl := hi bcast_S800000_S800000x1_0
  after_results; rfl
theorem ops12_v16 (hT : W main_v13 = T) (hi : ∀ h, broadcastInDim S800000x1 ![0] h (W main_v1) = idx) :
    after hostOps1_2 W main_v16 = take T idx := by
  subst hT; obtain rfl := hi bcast_S800000_S800000x1_0
  after_results; rfl
theorem ops13_v17 (hT : W main_v14 = T) (hi : ∀ h, broadcastInDim S800000x1 ![0] h (W main_v1) = idx) :
    after hostOps1_3 W main_v17 = take T idx := by
  subst hT; obtain rfl := hi bcast_S800000_S800000x1_0
  after_results; rfl
end

theorem ops14_v18 : rowVec (after hostOps1_4 W main_v18) = W main_arg8 := by
  after_results; exact rowVec_shapeCast _ _

section
variable {v : A2 800000 128} (h3 : W main_v19_3 = blockSums 250 3200 v)
include h3
theorem ops2_v24 : after hostOps2 W main_v24 = colMean nEdges v := by
  after_results; rw [h3]; exact mean_chain (B := 250) _ _ _ (by decide) _ _ 3200 _ v
theorem ops2_v31 (h4 : W main_v19_4 = blockSums 250 3200 (sq v)) : after hostOps2 W main_v31 = colVarMoments nEdges v := by
  after_results_simp; rw [h3, h4]
  exact var_of_means _ v (mean_chain (B := 250) _ _ _ (by decide) _ _ 3200 _ v) (mean_chain (B := 250) _ _ _ (by decide) _ _ 3200 _ (sq v))
end

theorem ops2_v40 {idx : I2 800000 1} {u g : A2 800000 128} (hi : ∀ h, broadcastInDim S800000x1 ![0] h (W main_v3) = idx)
    (hu : W main_v19_1 = u) (hg : W main_v19_2 = g) : after hostOps2 W main_v40 = aggr (accum idx u) (accum idx g) := by
  after_results_simp; rw [hi, hu, hg, scatterAdd_eq_accum, scatterAdd_eq_accum]; exact divf_eq_aggr _ _ _

section
variable {v : A2 50000 128} (h1 : W main_v41_1 = blockSums 25 2000 v)
include h1
theorem ops3_v54 : rowVec (after hostOps3 W main_v54) = colMean nNodes v := by
  after_results; rw [h1]
  exact (rowVec_shapeCast _ _).trans (mean_chain (B := 25) _ _ _ (by decide) _ _ 2000 _ v)
theorem ops3_v55 (h2 : W main_v41_2 = blockSums 25 2000 (sq v)) : rowVec (after hostOps3 W main_v55) = colVarMoments nNodes v := by
  after_results_simp; rw [h1, h2]
  exact (rowVec_shapeCast _ _).trans (var_of_means _ v (mean_chain (B := 25) _ _ _ (by decide) _ _ 2000 _ v)
    (mean_chain (B := 25) _ _ _ (by decide) _ _ 2000 _ (sq v)))
end

theorem ops3_v56 : rowVec (after hostOps3 W main_v56) = W main_arg13 := by
  after_results; exact rowVec_shapeCast _ _
theorem ops3_v57 : rowVec (after hostOps3 W main_v57) = W main_arg14 := by
  after_results; exact rowVec_shapeCast _ _
theorem ops4_v59 : rowVec (after hostOps4 W main_v59) = W main_v24 := by
  after_results; exact rowVec_shapeCast _ _
theorem ops4_v60 : rowVec (after hostOps4 W main_v60) = W main_v31 := by
  after_results; exact rowVec_shapeCast _ _
theorem ops4_v61 : rowVec (after hostOps4 W main_v61) = W main_arg15 := by
  after_results; exact rowVec_shapeCast _ _
theorem ops4_v62 : rowVec (after hostOps4 W main_v62) = W main_arg16 := by
  after_results; exact rowVec_shapeCast _ _

end Cert.KernelIdeal.Hand

end
-- ==== Proof.LibBlocks.lean ====
/-
  Blocks of an array: a window stepping one block a point along one axis covers its array; a product into a zero
  accumulator at an index; a column sum laid along the 8 rows of a tile; the column sums of a block of rows.
-/
import proofs.«418560_j60430189855387_3_alg».proof.Proof.LibLayout
import proofs.«418560_j60430189855387_3_alg».proof.Proof.SpecForms
import Idealize.ShloMosaic.Lib.Pipeline.Value
import Idealize.ShloMosaic.Lib.ValueIdx
import Idealize.ShloMosaic.Lib.ValueLayout
import Idealize.ShloMosaic.PureOps.Ideal.Laws

noncomputable section

namespace Cert.LibBlocks

open Idealize.ShloMosaic Idealize.ShloMosaic.TcCoe Idealize.ShloMosaic.ValueIdx
open Idealize.ShloMosaic.Pipeline (Dat Cfg Window Grid)

theorem zeros2 : (![0, 0] : Fin 2 → Nat) = fun _ => 0 := funext fun a => by fin_cases a <;> rfl
theorem zeros3 : (![0, 0, 0] : Fin 3 → Nat) = fun _ => 0 := funext fun a => by fin_cases a <;> rfl

/-- A block index that is the point on the first of two (three) axes and zero on the rest. -/
theorem step2 {f : Fin 2 → Nat} {T : Nat} (h0 : f 0 = T) (h1 : f 1 = 0) (a : Fin 2) : f a = if a = 0 then T else 0 := by
  fin_cases a <;> simp [h0, h1]
theorem step3 {f : Fin 3 → Nat} {T : Nat} (h0 : f 0 = T) (h1 : f 1 = 0) (h2 : f 2 = 0) (a : Fin 3) :
    f a = if a = 0 then T else 0 := by
  fin_cases a <;> simp [h0, h1, h2]

section Arr
variable {nD : Nat} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Cfg sig Λ₀} {c : Dev nD} (dat : Dat τ Val Ix Name U Lvl cfg c)

/-- The array of an output window that steps one block a point along axis `a0`, the other axes whole, ends holding `A` when every point writes back its block of `A`. -/
theorem arrAt_eq_of_rows (w : Fin cfg.W) (a0 : Fin (cfg.win w).shape.rank)
    (A : Buf Val ((cfg.win w).arr.view.loc (c.tc : Thread nD τ))) (harr : (cfg.win w).arr.IsWhole)
    (hfl : ∀ t, (cfg.win w).flush t = true)
    (hx : ∀ t a, (cfg.win w).xsize (cfg.grid.coords t) a = (cfg.win w).size a) (hpos : 0 < (cfg.win w).size a0)
    (hrows : (cfg.win w).shape.size a0 ≤ cfg.N * (cfg.win w).size a0)
    (hrest : ∀ a, a ≠ a0 → (cfg.win w).shape.size a ≤ (cfg.win w).size a)
    (h : ∀ t, (∀ a, (cfg.win w).index t a = if a = a0 then t.val else 0)
      ∧ dat.flushed w t = ((cfg.win w).blk t).view.read Val A) :
    dat.arrAt w cfg.N = A := by
  refine dat.arrAt_eq_of_cover w A (fun t _ => (h t).2) fun i => ?_
  obtain ⟨j, rfl⟩ := View.exists_emb_of_mem_set (cfg.win w).arr.view (i := i) (by rw [harr.set_eq_univ]; exact Finset.mem_univ _)
  have ht : (j a0).val / (cfg.win w).size a0 < cfg.N :=
    Nat.div_lt_of_lt_mul (by rw [Nat.mul_comm]; exact Nat.lt_of_lt_of_le (j a0).isLt hrows)
  refine ⟨⟨_, ht⟩, hfl _, ?_⟩
  show (cfg.win w).arr.view.emb j ∈ ((cfg.win w).arr.view.slice ((cfg.win w).rect ⟨_, ht⟩)).set
  rw [View.set_slice]
  refine Finset.mem_map_of_mem _ (Rect.mem_set_unit.mpr fun a => ?_)
  rw [(h _).1, hx]
  by_cases ha : a = a0
  · subst ha
    rw [if_pos rfl]
    exact ⟨Nat.div_mul_le_self _ _, Nat.lt_div_mul_add hpos⟩
  · rw [if_neg ha, Nat.zero_mul, Nat.zero_add]
    exact ⟨Nat.zero_le _, Nat.lt_of_lt_of_le (j a).isLt (hrest a ha)⟩

end Arr

section Payload

/-- A rows-by-columns product accumulated into the zero matrix, read at (a, b): the sum over the shared coordinate. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (LibLayout.dotGeneral_plain_apply prec .single A B a b))

/-- The column sums of an n-row block, laid along the 8 rows of a tile, read at (u, r, q): the sum of column q. -/
theorem colSumTile_apply {n : Nat} (X : FVec Ideal ⟨2, ![n, 128]⟩ .f32) (hr : (⟨2, ![n, 128]⟩ : Shape).Reduces [0] ⟨1, ![128]⟩)
    (hφ : FKind.Formats .f32) (hacc : (0x00000000#32 : BitVec FTy.f32.bits) = FKind.add.neutral .f32 hφ)
    (h1 : (⟨1, ![128]⟩ : Shape).ShapeCasts ⟨2, ![1, 128]⟩) (h2 : (⟨2, ![1, 128]⟩ : Shape).ShapeCasts ⟨2, ![1, 128]⟩)
    (h3 : (⟨2, ![1, 128]⟩ : Shape).Broadcasts ⟨2, ![8, 128]⟩) (h4 : (⟨2, ![8, 128]⟩ : Shape).ShapeCasts ⟨3, ![1, 8, 128]⟩)
    (u : Fin 1) (r : Fin 8) (q : Fin 128) :
    (shapeCast ⟨3, ![1, 8, 128]⟩ (broadcastTo ⟨2, ![8, 128]⟩ (shapeCast ⟨2, ![1, 128]⟩ (shapeCast ⟨2, ![1, 128]⟩
        (multiReduction (F := Ideal) .add [0] ⟨1, ![128]⟩ X 0x00000000#32 hr hφ hacc) h1) h2) h3) h4 (ix3 u r q) : EReal)
      = ∑ k : Fin n, X (ix2 k q) := by
  refine (shapeCast_ab_1ab_apply _ h4 u r q).trans ?_
  refine (broadcastTo_1b_ab_apply _ h3 r q).trans ?_
  rw [shapeCast_self]
  refine (shapeCast_a_1a_apply _ h1 (0 : Fin 1) q).trans ?_
  refine (Ideal.multiReduction_add_single X _ hr hφ hacc (ix1 q)).trans ?_
  show ∑ k : Fin n, X (hr.lift (ix1 q) k) = _
  refine Finset.sum_congr rfl fun k _ => congrArg X (funext fun a => Fin.ext ?_)
  match a with
  | ⟨0, _⟩ => rfl
  | ⟨1, _⟩ => rfl

/-- A sum over the rows of block `i 0`, each term the entry of `h` in that row and in column `i 2`, is the block's column sum. -/
theorem blockSums_apply {B R : Nat} (h : Cert.Spec.A2 (B * R) 128) (i : (Cert.Spec.S3 B 8 128).Idx) (f : Fin R → EReal)
    (hf : ∀ (r : Fin R) (j : (Cert.Spec.S2 (B * R) 128).Idx), (j 0).val = (i 0).val * R + r.val → (j 1).val = (i 2).val → f r = h j) :
    ∑ r, f r = Cert.Spec.blockSums B R h i :=
  Finset.sum_congr rfl fun r _ => hf r _ rfl rfl

end Payload

end Cert.LibBlocks

end
-- ==== Proof.KI.Value0.lean ====
/-
  The node projection launch: its 50000 x 512 output holds, at (r, q), the sum over k of x[r, k] W[k, q] plus the
  bias row at q.
-/
import proofs.«418560_j60430189855387_3_alg».proof.Proof.KI.Region0
import proofs.«418560_j60430189855387_3_alg».proof.Proof.SpecForms
import proofs.«418560_j60430189855387_3_alg».proof.Proof.LibBlocks

noncomputable section

namespace Cert.KernelIdeal.Hand

open Cert.KernelIdeal Cert.KernelIdeal.Gen Cert.LibBlocks
open Idealize.ShloMosaic Idealize.ShloMosaic.TcCoe Idealize.ShloMosaic.ValueIdx
open Idealize.ShloMosaic.Pipeline (Dat Cfg Window)

theorem pay0_apply (x0 : Vec Ideal S2000x128 .f32) (x1 : Vec Ideal S128x512 .f32) (x2 : Vec Ideal S1x512 .f32)
    (p : Fin 2000) (q : Fin 512) :
    k0_pay1 x0 x1 x2 (ix2 p q) = (∑ k : Fin 128, x0 (ix2 p k) * x1 (ix2 k q)) + x2 (ix2 (0 : Fin 1) q) := by
  unfold k0_pay1
  show FloatOps.matmul (DotDims.plain 2000 128 512) none (truncf .bf16 x0 _)
        (truncf .bf16 (shapeCast S128x512 x1 _) _) (constant (F := Ideal) S2000x512 .f32 0x00000000#32) (ix2 p q)
      + broadcastTo S2000x512 (shapeCast S1x512 x2 _) _ (ix2 p q) = _
  rw [matmul_plain_zero_apply, shapeCast_self, shapeCast_self, broadcastTo_1b_ab_apply]
  rfl

variable (V : (c : Dev nD) → (b : Ref sig .tc) → Buf (Elt Ideal) ((c : Thread nD τ).loc b))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of the node features is their rows `2000 t …`; the weights and the bias are read whole. -/
theorem blk0_apply (c : Dev nD) (t : Fin cfg0.N) :
    (∀ (y : S2000x128.Idx) (i : S50000x128.Idx), (i 0).val = t.val * 2000 + (y 0).val → (i 1).val = (y 1).val →
        (iblk0 V c 0 t : Vec Ideal S2000x128 .f32) y = (V c main_arg0 : S50000x128.Idx → EReal) i)
      ∧ (iblk0 V c 1 t : Vec Ideal S128x512 .f32) = (V c main_v4 : S128x512.Idx → EReal)
      ∧ (iblk0 V c 2 t : Vec Ideal S1x512 .f32) = (V c main_v6 : S1x512.Idx → EReal) := by
  obtain ⟨e0, e1, e2, e3, e4, e5, -⟩ := idx_facts0 t
  have hz : ∀ {n0 n1 : ℕ}, n0 = 0 → n1 = 0 → ∀ m0 m1 x y : ℕ, n0 * m0 + 1 * x = x ∧ n1 * m1 + 1 * y = y :=
    fun a b _ _ _ _ => by subst a b; omega
  refine ⟨fun y i h0 h1 => congrArg (V c main_arg0) (Shape.idx_ext₂ ?_ ?_),
    funext fun y => congrArg (V c main_v4) (Shape.idx_ext₂ (hz e2 e3 128 512 (y 0).val (y 1).val).1 (hz e2 e3 128 512 (y 0).val (y 1).val).2),
    funext fun y => congrArg (V c main_v6) (Shape.idx_ext₂ (hz e4 e5 1 512 (y 0).val (y 1).val).1 (hz e4 e5 1 512 (y 0).val (y 1).val).2)⟩
  · show win0_0.index t (0 : Fin 2) * 2000 + 1 * (y 0).val = (i 0).val
    rw [e0, h0]; omega
  · show win0_0.index t (1 : Fin 2) * 128 + 1 * (y 1).val = (i 1).val
    rw [e1, h1]; omega

/-- Over a block reading rows `2000 T …` of `A`, entry `j` of the payload is `A W + b` at `j` moved down `2000 T` rows. -/
theorem point0 (A : Cert.Spec.A2 50000 128) (W : (Cert.Spec.S2 128 512).Idx → EReal) (b : (Cert.Spec.S2 1 512).Idx → EReal)
    (x0 : Vec Ideal S2000x128 .f32) (T : ℕ)
    (h0 : ∀ (y : S2000x128.Idx) (i : S50000x128.Idx), (i 0).val = T * 2000 + (y 0).val → (i 1).val = (y 1).val → x0 y = A i)
    (j : S2000x512.Idx) (i : S50000x512.Idx)
    (hi0 : (i 0).val = T * 2000 + (j 0).val) (hi1 : (i 1).val = (j 1).val) :
    k0_pay1 x0 W b j = Cert.Spec.linWide A W b i := by
  obtain ⟨p, q, rfl⟩ : ∃ (p : Fin 2000) (q : Fin 512), j = ix2 p q := ⟨j 0, j 1, eq_ix2 j⟩
  obtain ⟨r, s, rfl⟩ : ∃ (r : Fin 50000) (s : Fin 512), i = ix2 r s := ⟨i 0, i 1, eq_ix2 i⟩
  obtain rfl : s = q := Fin.ext hi1
  rw [pay0_apply]
  show _ = (∑ k : Fin 128, A (ix2 r k) * W (ix2 k s)) + b (ix2 (0 : Fin 1) s)
  refine congrArg (· + b (ix2 (0 : Fin 1) s)) (Finset.sum_congr rfl fun k _ => ?_)
  rw [h0 (ix2 p k) (ix2 r k) hi0 rfl]

theorem arr0_3 (c : Dev nD) :
    (dat0 V c).arrAt 3 cfg0.N = Cert.Spec.linWide (V c main_arg0) (V c main_v4) (V c main_v6) :=
  arrAt_eq_of_rows (dat0 V c) 3 (0 : Fin 2) _ (Memref.isWhole_whole _) flush0_3 (fun _ _ => rfl) (by decide) (by decide)
    (by decide) fun t => by
    obtain ⟨-, -, -, -, -, -, e6, e7⟩ := idx_facts0 t
    refine ⟨step2 e6 e7, ?_⟩
    show (cfg0.win 3).cut (grid0.coords t) ((dat0 V c).after 3 t) = _
    rw [after0_3]
    unfold out0_3
    rw [View.canon_unit_zero zeros2]
    simp only [View.ld_unit_zero (S := S2000x128) zeros2, View.ld_unit_zero (S := S128x512) zeros2,
      View.ld_unit_zero (S := S1x512) zeros2]
    funext j
    show k0_pay1 (iblk0 V c 0 t) (iblk0 V c 1 t) (iblk0 V c 2 t) j
      = Cert.Spec.linWide (V c main_arg0) (V c main_v4) (V c main_v6) (((cfg0.win 3).blk t).view.emb j)
    obtain ⟨hx, hw, hb⟩ := blk0_apply V c t
    rw [hw, hb]
    refine point0 _ _ _ _ t.val hx j _ ?_ ?_
    · show win0_3.index t (0 : Fin 2) * 2000 + 1 * (j 0).val = t.val * 2000 + (j 0).val
      rw [e6]; omega
    · show win0_3.index t (1 : Fin 2) * 512 + 1 * (j 1).val = (j 1).val
      rw [e7]; omega

end Cert.KernelIdeal.Hand

end
-- ==== Proof.KI.Value1.lean ====
/-
  The fused edge launch: the messages (two gathered projections plus the edge features' linear image), their logistic,
  the logistic times a third gathered projection, and per block of 3200 edges the column sums of the messages and of their squares.
-/
import proofs.«418560_j60430189855387_3_alg».proof.Proof.KI.Region1
import proofs.«418560_j60430189855387_3_alg».proof.Proof.SpecForms
import proofs.«418560_j60430189855387_3_alg».proof.Proof.LibBlocks

noncomputable section

namespace Cert.KernelIdeal.Hand

open Cert.KernelIdeal Cert.KernelIdeal.Gen Cert.LibBlocks
open Idealize.ShloMosaic Idealize.ShloMosaic.TcCoe Idealize.SL.Sem
open Idealize.ShloMosaic.ValueIdx
open Idealize.ShloMosaic.Pipeline (Dat)

theorem edgeDot_apply (A : FVec Ideal S3200x128 .bf16) (B : FVec Ideal S128x128 .bf16) (p : Fin 3200) (q : Fin 128) :
    matmul dot_S3200x128_S128x128_S3200x128_1_0_0_1_n_n none A B (constant (F := Ideal) S3200x128 .f32 0x00000000#32) (ix2 p q)
      = ∑ k : Fin 128, A (ix2 p k) * B (ix2 k q) :=
  matmul_plain_zero_apply none A B p q

theorem msgBlock_apply (x0 : FVec Ideal S3200x128 .f32) (x1 : FVec Ideal S128x128 .f32) (x2 : FVec Ideal S1x128 .f32)
    (x3 x4 : FVec Ideal S3200x128 .bf16) (p : Fin 3200) (q : Fin 128) :
    (k1_pay2 (F := Ideal) x0 x1 x2 x3 x4 (ix2 p q) : EReal)
      = x3 (ix2 p q) + x4 (ix2 p q) + ((∑ k : Fin 128, x0 (ix2 p k) * x1 (ix2 k q)) + x2 (ix2 (0 : Fin 1) q)) := by
  unfold k1_pay2
  simp only [addf_apply, extf_apply, shapeCast_self]
  rw [edgeDot_apply, broadcastTo_1b_ab_apply]
  simp only [truncf_apply]

theorem gatedBlock_apply (x0 : FVec Ideal S3200x128 .f32) (x1 : FVec Ideal S128x128 .f32) (x2 : FVec Ideal S1x128 .f32)
    (x3 x4 x5 : FVec Ideal S3200x128 .bf16) (p : Fin 3200) (q : Fin 128) :
    (k1_pay4 (F := Ideal) x0 x1 x2 x3 x4 x5 (ix2 p q) : EReal)
      = Ideal.logistic (k1_pay2 (F := Ideal) x0 x1 x2 x3 x4 (ix2 p q)) * x5 (ix2 p q) := by
  unfold k1_pay4
  simp only [mulf_apply, extf_apply, shapeCast_self]
  rfl

theorem sumBlock_apply (x0 : FVec Ideal S3200x128 .f32) (x1 : FVec Ideal S128x128 .f32) (x2 : FVec Ideal S1x128 .f32)
    (x3 x4 : FVec Ideal S3200x128 .bf16) (u : Fin 1) (r : Fin 8) (q : Fin 128) :
    (k1_pay6 (F := Ideal) x0 x1 x2 x3 x4 (ix3 u r q) : EReal) = ∑ k : Fin 3200, k1_pay2 (F := Ideal) x0 x1 x2 x3 x4 (ix2 k q) := by
  unfold k1_pay6
  exact colSumTile_apply _ _ _ _ _ _ _ _ u r q

theorem sqSumBlock_apply (x0 : FVec Ideal S3200x128 .f32) (x1 : FVec Ideal S128x128 .f32) (x2 : FVec Ideal S1x128 .f32)
    (x3 x4 : FVec Ideal S3200x128 .bf16) (u : Fin 1) (r : Fin 8) (q : Fin 128) :
    (k1_pay1 (F := Ideal) (k1_pay5 (F := Ideal) x0 x1 x2 x3 x4) (ix3 u r q) : EReal)
      = ∑ k : Fin 3200, k1_pay2 (F := Ideal) x0 x1 x2 x3 x4 (ix2 k q) * k1_pay2 (F := Ideal) x0 x1 x2 x3 x4 (ix2 k q) := by
  unfold k1_pay1 k1_pay5
  exact colSumTile_apply (mulf (k1_pay2 (F := Ideal) x0 x1 x2 x3 x4) (k1_pay2 (F := Ideal) x0 x1 x2 x3 x4)) _ _ _ _ _ _ _ u r q

theorem blockIdx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 3) = t.val ∧ win1_9.index t (1 : Fin 3) = 0 ∧ win1_9.index t (2 : Fin 3) = 0
    ∧ win1_10.index t (0 : Fin 3) = t.val ∧ win1_10.index t (1 : Fin 3) = 0 ∧ win1_10.index t (2 : Fin 3) = 0 :=
  (by decide +kernel : ∀ t : Fin grid1.N, _)

variable (V : (c : Dev nD) → (b : Ref sig .tc) → Buf (Elt Ideal) ((c : Thread nD τ).loc b))

/-- The message of every edge, as a function of the launch's input arrays. -/
def msgArr (c : Dev nD) : S800000x128.Idx → EReal :=
  Cert.Spec.msg (V c main_v15) (V c main_v16) (Cert.Spec.lin (V c main_arg1) (V c main_arg7) (Cert.Spec.rowVec (V c main_v18)))

/-- At point t the message block at (p, q) is the message at any index of row 3200 t + p and column q; so is the third gathered block. -/
theorem msgBlock_eq (c : Dev nD) (t : Fin cfg1.N) (p : Fin 3200) (q : Fin 128) (i : S800000x128.Idx)
    (h0 : (i 0).val = t.val * 3200 + p.val) (h1 : (i 1).val = q.val) :
    (k1_pay2 (F := Ideal) (iblk1 V c 0 t) (iblk1 V c 1 t) (iblk1 V c 2 t) (iblk1 V c 3 t) (iblk1 V c 4 t) (ix2 p q) : EReal)
        = msgArr V c i
      ∧ (iblk1 V c 5 t : FVec Ideal S3200x128 .bf16) (ix2 p q) = (V c main_v17 : S800000x128.Idx → EReal) i := by
  obtain ⟨a0, a1, w0, w1, b0, b1, d0, d1, s0, s1, g0, g1, -⟩ := blockIdx1 t
  obtain ⟨r, s, rfl⟩ : ∃ (r : Fin 800000) (s : Fin 128), i = ix2 r s := ⟨i 0, i 1, eq_ix2 i⟩
  obtain rfl : s = q := Fin.ext h1
  have h0 : r.val = t.val * 3200 + p.val := h0
  have hr : ∀ {n0 n1 : ℕ}, n0 = t.val → n1 = 0 → ∀ k : Fin 128, n0 * 3200 + 1 * p.val = r.val ∧ n1 * 128 + 1 * k.val = k.val :=
    fun e0 e1 k => by subst e0 e1; omega
  have hz : ∀ {n0 n1 : ℕ}, n0 = 0 → n1 = 0 → ∀ m0 m1 x y : ℕ, n0 * m0 + 1 * x = x ∧ n1 * m1 + 1 * y = y :=
    fun e0 e1 _ _ _ _ => by subst e0 e1; omega
  have e0 : ∀ k, (iblk1 V c 0 t : FVec Ideal S3200x128 .f32) (ix2 p k) = (V c main_arg1 : S800000x128.Idx → EReal) (ix2 r k) :=
    fun k => congrArg (V c main_arg1) (Shape.idx_ext₂ (hr a0 a1 k).1 (hr a0 a1 k).2)
  have e1 : ∀ k, (iblk1 V c 1 t : FVec Ideal S128x128 .f32) (ix2 k s) = (V c main_arg7 : S128x128.Idx → EReal) (ix2 k s) :=
    fun k => congrArg (V c main_arg7) (Shape.idx_ext₂ (hz w0 w1 128 128 k.val s.val).1 (hz w0 w1 128 128 k.val s.val).2)
  have e2 : (iblk1 V c 2 t : FVec Ideal S1x128 .f32) (ix2 0 s) = (V c main_v18 : S1x128.Idx → EReal) (ix2 0 s) :=
    congrArg (V c main_v18) (Shape.idx_ext₂ (hz b0 b1 1 128 0 s.val).1 (hz b0 b1 1 128 0 s.val).2)
  have e3 : (iblk1 V c 3 t : FVec Ideal S3200x128 .bf16) (ix2 p s) = (V c main_v15 : S800000x128.Idx → EReal) (ix2 r s) :=
    congrArg (V c main_v15) (Shape.idx_ext₂ (hr d0 d1 s).1 (hr d0 d1 s).2)
  have e4 : (iblk1 V c 4 t : FVec Ideal S3200x128 .bf16) (ix2 p s) = (V c main_v16 : S800000x128.Idx → EReal) (ix2 r s) :=
    congrArg (V c main_v16) (Shape.idx_ext₂ (hr s0 s1 s).1 (hr s0 s1 s).2)
  refine ⟨(msgBlock_apply _ _ _ _ _ p s).trans ?_, congrArg (V c main_v17) (Shape.idx_ext₂ (hr g0 g1 s).1 (hr g0 g1 s).2)⟩
  rw [e3, e4, e2]
  simp only [e0, e1]
  rfl

section Rows
variable (c : Dev nD) (t : Fin cfg1.N) (p : Fin 3200) (q : Fin 128)

/-- Where entry (p, q) of the row block of a window at block (t, 0) sits in the array. -/
theorem rowEmb {n0 n1 : ℕ} (e0 : n0 = t.val) (e1 : n1 = 0) :
    n0 * 3200 + 1 * p.val = t.val * 3200 + p.val ∧ n1 * 128 + 1 * q.val = q.val := by subst e0 e1; omega

end Rows

theorem arr1_6 (c : Dev nD) : (dat1 V c).arrAt 6 cfg1.N = msgArr V c :=
  arrAt_eq_of_rows (dat1 V c) 6 (0 : Fin 2) _ (Memref.isWhole_whole _) flush1_6 (fun _ _ => rfl) (by decide) (by decide)
    (by decide) fun t => by
    obtain ⟨-, -, -, -, -, -, -, -, -, -, -, -, e0, e1, -⟩ := blockIdx1 t
    refine ⟨step2 e0 e1, ?_⟩
    show (cfg1.win 6).cut (grid1.coords t) ((dat1 V c).after 6 t) = _
    rw [after1_6]
    unfold out1_6
    rw [View.canon_unit_zero zeros2]
    simp only [View.ld_unit_zero (S := S3200x128) zeros2, View.ld_unit_zero (S := S128x128) zeros2, View.ld_unit_zero (S := S1x128) zeros2]
    funext j
    obtain ⟨p, q, rfl⟩ : ∃ (p : Fin 3200) (q : Fin 128), j = ix2 p q := ⟨j 0, j 1, eq_ix2 j⟩
    show _ = msgArr V c (((cfg1.win 6).blk t).view.emb (ix2 p q))
    exact (msgBlock_eq V c t p q _ (rowEmb t p q e0 e1).1 (rowEmb t p q e0 e1).2).1

theorem arr1_8 (c : Dev nD) : (dat1 V c).arrAt 8 cfg1.N = Cert.Spec.gate (msgArr V c) :=
  arrAt_eq_of_rows (dat1 V c) 8 (0 : Fin 2) _ (Memref.isWhole_whole _) flush1_8 (fun _ _ => rfl) (by decide) (by decide)
    (by decide) fun t => by
    obtain ⟨-, -, -, -, -, -, -, -, -, -, -, -, -, -, -, -, e0, e1, -⟩ := blockIdx1 t
    refine ⟨step2 e0 e1, ?_⟩
    show (cfg1.win 8).cut (grid1.coords t) ((dat1 V c).after 8 t) = _
    rw [after1_8]
    unfold out1_8
    rw [View.canon_unit_zero zeros2]
    simp only [View.ld_unit_zero (S := S3200x128) zeros2, View.ld_unit_zero (S := S128x128) zeros2, View.ld_unit_zero (S := S1x128) zeros2]
    funext j
    obtain ⟨p, q, rfl⟩ : ∃ (p : Fin 3200) (q : Fin 128), j = ix2 p q := ⟨j 0, j 1, eq_ix2 j⟩
    show _ = Ideal.logistic (msgArr V c (((cfg1.win 8).blk t).view.emb (ix2 p q)))
    exact congrArg Ideal.logistic (msgBlock_eq V c t p q _ (rowEmb t p q e0 e1).1 (rowEmb t p q e0 e1).2).1

theorem arr1_7 (c : Dev nD) :
    (dat1 V c).arrAt 7 cfg1.N = Cert.Spec.gated (Cert.Spec.gate (msgArr V c)) (V c main_v17) :=
  arrAt_eq_of_rows (dat1 V c) 7 (0 : Fin 2) _ (Memref.isWhole_whole _) flush1_7 (fun _ _ => rfl) (by decide) (by decide)
    (by decide) fun t => by
    obtain ⟨-, -, -, -, -, -, -, -, -, -, -, -, -, -, e0, e1, -⟩ := blockIdx1 t
    refine ⟨step2 e0 e1, ?_⟩
    show (cfg1.win 7).cut (grid1.coords t) ((dat1 V c).after 7 t) = _
    rw [after1_7]
    unfold out1_7
    rw [View.canon_unit_zero zeros2]
    simp only [View.ld_unit_zero (S := S3200x128) zeros2, View.ld_unit_zero (S := S128x128) zeros2, View.ld_unit_zero (S := S1x128) zeros2]
    funext j
    obtain ⟨p, q, rfl⟩ : ∃ (p : Fin 3200) (q : Fin 128), j = ix2 p q := ⟨j 0, j 1, eq_ix2 j⟩
    show _ = Ideal.logistic (msgArr V c (((cfg1.win 7).blk t).view.emb (ix2 p q)))
      * (V c main_v17 : S800000x128.Idx → EReal) (((cfg1.win 7).blk t).view.emb (ix2 p q))
    obtain ⟨hm, h5⟩ := msgBlock_eq V c t p q (((cfg1.win 7).blk t).view.emb (ix2 p q)) (rowEmb t p q e0 e1).1 (rowEmb t p q e0 e1).2
    exact (gatedBlock_apply _ _ _ _ _ _ p q).trans (by rw [hm, h5])

theorem arr1_9 (c : Dev nD) : (dat1 V c).arrAt 9 cfg1.N = Cert.Spec.blockSums 250 3200 (msgArr V c) :=
  arrAt_eq_of_rows (dat1 V c) 9 (0 : Fin 3) _ (Memref.isWhole_whole _) flush1_9 (fun _ _ => rfl) (by decide) (by decide)
    (by decide) fun t => by
    obtain ⟨-, -, -, -, -, -, -, -, -, -, -, -, -, -, -, -, -, -, e0, e1, e2, -⟩ := blockIdx1 t
    refine ⟨step3 e0 e1 e2, ?_⟩
    show (cfg1.win 9).cut (grid1.coords t) ((dat1 V c).after 9 t) = _
    rw [after1_9]
    unfold out1_9
    rw [View.canon_unit_zero zeros3]
    simp only [View.ld_unit_zero (S := S3200x128) zeros2, View.ld_unit_zero (S := S128x128) zeros2, View.ld_unit_zero (S := S1x128) zeros2]
    funext j
    obtain ⟨u, r, q, rfl⟩ : ∃ (u : Fin 1) (r : Fin 8) (q : Fin 128), j = ix3 u r q := ⟨j 0, j 1, j 2, eq_ix3 j⟩
    show _ = Cert.Spec.blockSums 250 3200 (msgArr V c) (((cfg1.win 9).blk t).view.emb (ix3 u r q))
    refine (sumBlock_apply _ _ _ _ _ u r q).trans
      (blockSums_apply _ _ _ fun k j hj0 hj1 =>
        (msgBlock_eq V c t k q j (hj0.trans ?_) (hj1.trans ?_)).1)
    · show (win1_9.index t (0 : Fin 3) * 1 + 1 * u.val) * 3200 + k.val = t.val * 3200 + k.val
      rw [e0]; have := u.isLt; omega
    · show win1_9.index t (2 : Fin 3) * 128 + 1 * q.val = q.val
      rw [e2]; omega

theorem arr1_10 (c : Dev nD) : (dat1 V c).arrAt 10 cfg1.N = Cert.Spec.blockSums 250 3200 (Cert.Spec.sq (msgArr V c)) :=
  arrAt_eq_of_rows (dat1 V c) 10 (0 : Fin 3) _ (Memref.isWhole_whole _) flush1_10 (fun _ _ => rfl) (by decide) (by decide)
    (by decide) fun t => by
    obtain ⟨-, -, -, -, -, -, -, -, -, -, -, -, -, -, -, -, -, -, -, -, -, e0, e1, e2⟩ := blockIdx1 t
    refine ⟨step3 e0 e1 e2, ?_⟩
    show (cfg1.win 10).cut (grid1.coords t) ((dat1 V c).after 10 t) = _
    rw [after1_10]
    unfold out1_10
    rw [View.canon_unit_zero zeros3]
    simp only [View.ld_unit_zero (S := S3200x128) zeros2, View.ld_unit_zero (S := S128x128) zeros2, View.ld_unit_zero (S := S1x128) zeros2]
    funext j
    obtain ⟨u, r, q, rfl⟩ : ∃ (u : Fin 1) (r : Fin 8) (q : Fin 128), j = ix3 u r q := ⟨j 0, j 1, j 2, eq_ix3 j⟩
    show _ = Cert.Spec.blockSums 250 3200 (Cert.Spec.sq (msgArr V c)) (((cfg1.win 10).blk t).view.emb (ix3 u r q))
    refine (sqSumBlock_apply _ _ _ _ _ u r q).trans
      (blockSums_apply _ _ _ fun k j hj0 hj1 =>
        congrArg (fun x => x * x) (msgBlock_eq V c t k q j (hj0.trans ?_) (hj1.trans ?_)).1)
    · show (win1_10.index t (0 : Fin 3) * 1 + 1 * u.val) * 3200 + k.val = t.val * 3200 + k.val
      rw [e0]; have := u.isLt; omega
    · show win1_10.index t (2 : Fin 3) * 128 + 1 * q.val = q.val
      rw [e2]; omega

end Cert.KernelIdeal.Hand

end
-- ==== Proof.KI.Value2.lean ====
/-
  The node combine launch: its first output holds the entrywise sum of the first projection and the gated mean; the
  second, per block of 2000 rows, the column sums of that sum in 8-row tiles; the third the same of its square.
-/
import proofs.«418560_j60430189855387_3_alg».proof.Proof.KI.Region2
import proofs.«418560_j60430189855387_3_alg».proof.Proof.SpecForms
import proofs.«418560_j60430189855387_3_alg».proof.Proof.LibBlocks

noncomputable section

namespace Cert.KernelIdeal.Hand

open Cert.KernelIdeal Cert.KernelIdeal.Gen Cert.LibBlocks
open Idealize.ShloMosaic Idealize.ShloMosaic.TcCoe Idealize.ShloMosaic.ValueIdx
open Idealize.ShloMosaic.Pipeline (Dat Cfg Window)

theorem pay2_1_apply (x0 x1 : Vec Ideal S2000x128 .f32) (j : S2000x128.Idx) : k2_pay1 x0 x1 j = x0 j + x1 j := by
  unfold k2_pay1
  simp only [shapeCast_self]
  rfl

theorem pay2_2_apply (x0 x1 : Vec Ideal S2000x128 .f32) (u : Fin 1) (r : Fin 8) (q : Fin 128) :
    k2_pay2 x0 x1 (ix3 u r q) = ∑ k : Fin 2000, (x0 (ix2 k q) + x1 (ix2 k q)) := by
  unfold k2_pay2
  exact (colSumTile_apply (k2_pay1 x0 x1) _ _ _ _ _ _ _ u r q).trans
    (Finset.sum_congr rfl fun k _ => pay2_1_apply x0 x1 (ix2 k q))

theorem pay2_3_apply (x0 x1 : Vec Ideal S2000x128 .f32) (u : Fin 1) (r : Fin 8) (q : Fin 128) :
    k2_pay3 x0 x1 (ix3 u r q)
      = ∑ k : Fin 2000, (x0 (ix2 k q) + x1 (ix2 k q)) * (x0 (ix2 k q) + x1 (ix2 k q)) := by
  unfold k2_pay3
  refine (colSumTile_apply (mulf (k2_pay1 x0 x1) (k2_pay1 x0 x1)) _ _ _ _ _ _ _ u r q).trans
    (Finset.sum_congr rfl fun k _ => ?_)
  rw [mulf_apply, pay2_1_apply]

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

variable (V : (c : Dev nD) → (b : Ref sig .tc) → Buf (Elt Ideal) ((c : Thread nD τ).loc b))

/-- Block `t` of either input is its rows `2000 t …`. -/
theorem blk2_apply (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v8 : S50000x128.Idx → EReal) i
      ∧ (iblk2 V c 1 t : Vec Ideal S2000x128 .f32) y = (V c main_v40 : S50000x128.Idx → EReal) i := by
  obtain ⟨e0, e1, e2, e3, -⟩ := idx_facts2 t
  have hr : ∀ {n0 n1 : ℕ}, n0 = t.val → n1 = 0 → n0 * 2000 + 1 * (y 0).val = (i 0).val ∧ n1 * 128 + 1 * (y 1).val = (i 1).val :=
    fun a b => by subst a b; omega
  exact ⟨congrArg (V c main_v8) (Shape.idx_ext₂ (hr e0 e1).1 (hr e0 e1).2),
    congrArg (V c main_v40) (Shape.idx_ext₂ (hr e2 e3).1 (hr e2 e3).2)⟩

section Points
variable (A B : Cert.Spec.A2 50000 128) (x0 x1 : Vec Ideal S2000x128 .f32) (T : ℕ)
  (h : ∀ (y : S2000x128.Idx) (i : S50000x128.Idx), (i 0).val = T * 2000 + (y 0).val → (i 1).val = (y 1).val →
    x0 y = A i ∧ x1 y = B i)
include h

/-- Over blocks reading rows `2000 T …` of `A` and `B`, the first payload at `j` is `A + B` at `j` moved down `2000 T` rows, -/
theorem point2_2 (j : S2000x128.Idx) (i : S50000x128.Idx)
    (hi0 : (i 0).val = T * 2000 + (j 0).val) (hi1 : (i 1).val = (j 1).val) :
    k2_pay1 x0 x1 j = Cert.Spec.upd A B i := by
  rw [pay2_1_apply, (h j i hi0 hi1).1, (h j i hi0 hi1).2]
  rfl

/-- and the other two, at any entry of tile `T`, are the column sums over those rows of `A + B` and of its square. -/
theorem point2_3 (j : S1x8x128.Idx) (i : S25x8x128.Idx) (hi0 : (i 0).val = T) (hi2 : (i 2).val = (j 2).val) :
    k2_pay2 x0 x1 j = Cert.Spec.blockSums 25 2000 (Cert.Spec.upd A B) i
      ∧ k2_pay3 x0 x1 j = Cert.Spec.blockSums 25 2000 (Cert.Spec.sq (Cert.Spec.upd A B)) i := by
  obtain ⟨u, r, q, rfl⟩ : ∃ (u : Fin 1) (r : Fin 8) (q : Fin 128), j = ix3 u r q := ⟨j 0, j 1, j 2, eq_ix3 j⟩
  have hk : ∀ (k : Fin 2000) (l : S50000x128.Idx), (l 0).val = (i 0).val * 2000 + k.val → (l 1).val = (i 2).val →
      x0 (ix2 k q) = A l ∧ x1 (ix2 k q) = B l :=
    fun k l hl0 hl1 => h (ix2 k q) l (hl0.trans (by rw [hi0])) (hl1.trans hi2)
  constructor
  · refine (pay2_2_apply x0 x1 u r q).trans (blockSums_apply _ _ _ fun k l hl0 hl1 => ?_)
    rw [(hk k l hl0 hl1).1, (hk k l hl0 hl1).2]
    rfl
  · refine (pay2_3_apply x0 x1 u r q).trans (blockSums_apply _ _ _ fun k l hl0 hl1 => ?_)
    rw [(hk k l hl0 hl1).1, (hk k l hl0 hl1).2]
    rfl

end Points

theorem arr2_2 (c : Dev nD) :
    (dat2 V c).arrAt 2 cfg2.N = Cert.Spec.upd (V c main_v8) (V c main_v40) :=
  arrAt_eq_of_rows (dat2 V c) 2 (0 : Fin 2) _ (Memref.isWhole_whole _) flush2_2 (fun _ _ => rfl) (by decide) (by decide)
    (by decide) fun t => by
    obtain ⟨-, -, -, -, e4, e5, -⟩ := idx_facts2 t
    refine ⟨step2 e4 e5, ?_⟩
    show (cfg2.win 2).cut (grid2.coords t) ((dat2 V c).after 2 t) = _
    rw [after2_2]
    unfold out2_2
    rw [View.canon_unit_zero zeros2]
    simp only [View.ld_unit_zero (S := S2000x128) zeros2]
    funext j
    show k2_pay1 (iblk2 V c 0 t) (iblk2 V c 1 t) j
      = Cert.Spec.upd (V c main_v8) (V c main_v40) (((cfg2.win 2).blk t).view.emb j)
    refine point2_2 _ _ _ _ t.val (blk2_apply V c t) j _ ?_ ?_
    · show win2_2.index t (0 : Fin 2) * 2000 + 1 * (j 0).val = t.val * 2000 + (j 0).val
      rw [e4]; omega
    · show win2_2.index t (1 : Fin 2) * 128 + 1 * (j 1).val = (j 1).val
      rw [e5]; omega

theorem arr2_3 (c : Dev nD) :
    (dat2 V c).arrAt 3 cfg2.N = Cert.Spec.blockSums 25 2000 (Cert.Spec.upd (V c main_v8) (V c main_v40)) :=
  arrAt_eq_of_rows (dat2 V c) 3 (0 : Fin 3) _ (Memref.isWhole_whole _) flush2_3 (fun _ _ => rfl) (by decide) (by decide)
    (by decide) fun t => by
    obtain ⟨-, -, -, -, -, -, e6, e7, e8, -⟩ := idx_facts2 t
    refine ⟨step3 e6 e7 e8, ?_⟩
    show (cfg2.win 3).cut (grid2.coords t) ((dat2 V c).after 3 t) = _
    rw [after2_3]
    unfold out2_3
    rw [View.canon_unit_zero zeros3]
    simp only [View.ld_unit_zero (S := S2000x128) zeros2]
    funext j
    show k2_pay2 (iblk2 V c 0 t) (iblk2 V c 1 t) j
      = Cert.Spec.blockSums 25 2000 (Cert.Spec.upd (V c main_v8) (V c main_v40)) (((cfg2.win 3).blk t).view.emb j)
    have hj0 : (j 0).val < 1 := (j 0).isLt
    refine (point2_3 _ _ _ _ t.val (blk2_apply V c t) j _ ?_ ?_).1
    · show win2_3.index t (0 : Fin 3) * 1 + 1 * (j 0).val = t.val
      rw [e6]; omega
    · show win2_3.index t (2 : Fin 3) * 128 + 1 * (j 2).val = (j 2).val
      rw [e8]; omega

theorem arr2_4 (c : Dev nD) :
    (dat2 V c).arrAt 4 cfg2.N
      = Cert.Spec.blockSums 25 2000 (Cert.Spec.sq (Cert.Spec.upd (V c main_v8) (V c main_v40))) :=
  arrAt_eq_of_rows (dat2 V c) 4 (0 : Fin 3) _ (Memref.isWhole_whole _) flush2_4 (fun _ _ => rfl) (by decide) (by decide)
    (by decide) fun t => by
    obtain ⟨-, -, -, -, -, -, -, -, -, e9, e10, e11⟩ := idx_facts2 t
    refine ⟨step3 e9 e10 e11, ?_⟩
    show (cfg2.win 4).cut (grid2.coords t) ((dat2 V c).after 4 t) = _
    rw [after2_4]
    unfold out2_4
    rw [View.canon_unit_zero zeros3]
    simp only [View.ld_unit_zero (S := S2000x128) zeros2]
    funext j
    show k2_pay3 (iblk2 V c 0 t) (iblk2 V c 1 t) j
      = Cert.Spec.blockSums 25 2000 (Cert.Spec.sq (Cert.Spec.upd (V c main_v8) (V c main_v40))) (((cfg2.win 4).blk t).view.emb j)
    have hj0 : (j 0).val < 1 := (j 0).isLt
    refine (point2_3 _ _ _ _ t.val (blk2_apply V c t) j _ ?_ ?_).2
    · show win2_4.index t (0 : Fin 3) * 1 + 1 * (j 0).val = t.val
      rw [e9]; omega
    · show win2_4.index t (2 : Fin 3) * 128 + 1 * (j 2).val = (j 2).val
      rw [e11]; omega

end Cert.KernelIdeal.Hand

end
-- ==== Proof.KI.Value3.lean ====
/-
  A normalisation launch: its output array holds, at row p and column q, the positive part of
  scale[q] * (a[p, q] - mean[q]) * rsqrt(var[q] + eps) + shift[q], a the array it normalises.
-/
import proofs.«418560_j60430189855387_3_alg».proof.Proof.KI.Region3
import proofs.«418560_j60430189855387_3_alg».proof.Proof.SpecForms
import proofs.«418560_j60430189855387_3_alg».proof.Proof.LibBlocks

noncomputable section

namespace Cert.KernelIdeal.Hand

open Cert.KernelIdeal Cert.KernelIdeal.Gen Cert.LibBlocks
open Idealize.ShloMosaic Idealize.ShloMosaic.TcCoe Idealize.ShloMosaic.ValueIdx
open Idealize.SL.Sem
open Idealize.ShloMosaic.Pipeline (Dat Cfg Window)

theorem pay3_apply (x0 : Vec Ideal S10000x128 .f32) (x1 x2 x3 x4 : Vec Ideal S1x128 .f32) (p : Fin 10000) (q : Fin 128) :
    k3_pay1 x0 x1 x2 x3 x4 (ix2 p q)
      = max (x3 (ix2 (0 : Fin 1) q) * (x0 (ix2 p q) - x1 (ix2 (0 : Fin 1) q))
              * Ideal.rsqrt (x2 (ix2 (0 : Fin 1) q) + Cert.Spec.bnEps) + x4 (ix2 (0 : Fin 1) q)) 0 := by
  unfold k3_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  show max (x3 (ix2 0 q) * (x0 (ix2 p q) - x1 (ix2 0 q)) * Ideal.rsqrt (x2 (ix2 0 q) + Ideal.ofBits .f32 0x3727C5AC#32) + x4 (ix2 0 q)) (Ideal.ofBits .f32 0x00000000#32) = _
  rw [Ideal.ofBits_zero_f32]
  rfl

/-- The stored entry, over blocks that read `A` at `i` and the four rows at `i`'s column, is the normalised entry at `i`. -/
theorem point3 {n : ℕ} (A : Cert.Spec.A2 n 128) (M S G B : (Cert.Spec.S2 1 128).Idx → EReal)
    (x0 : Vec Ideal S10000x128 .f32) (x1 x2 x3 x4 : Vec Ideal S1x128 .f32) (p : Fin 10000) (q : Fin 128)
    (i : (Cert.Spec.S2 n 128).Idx) (h0 : x0 (ix2 p q) = A i) (h1 : x1 (ix2 0 q) = M (ix2 0 (i 1)))
    (h2 : x2 (ix2 0 q) = S (ix2 0 (i 1))) (h3 : x3 (ix2 0 q) = G (ix2 0 (i 1))) (h4 : x4 (ix2 0 q) = B (ix2 0 (i 1))) :
    k3_pay1 x0 x1 x2 x3 x4 (ix2 p q)
      = Cert.Spec.normRelu A (Cert.Spec.rowVec M) (Cert.Spec.rowVec S) (Cert.Spec.rowVec G) (Cert.Spec.rowVec B) i := by
  rw [pay3_apply, h0, h1, h2, h3, h4]
  rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b))

theorem arr3_5 (c : Dev nD) : (dat3 V c).arrAt 5 cfg3.N
    = Cert.Spec.normRelu (V c main_v41_0) (Cert.Spec.rowVec (V c main_v54)) (Cert.Spec.rowVec (V c main_v55))
        (Cert.Spec.rowVec (V c main_v56)) (Cert.Spec.rowVec (V c main_v57)) :=
  arrAt_eq_of_rows (dat3 V c) 5 (0 : Fin 2) _ (Memref.isWhole_whole _) flush3_5 (fun _ _ => rfl) (by decide) (by decide)
    (by decide) fun t => by
    obtain ⟨a0, a1, m0, m1, s0, s1, g0, g1, b0, b1, e0, e1⟩ := idx_facts3 t
    refine ⟨step2 e0 e1, ?_⟩
    show (cfg3.win 5).cut (grid3.coords t) ((dat3 V c).after 5 t) = _
    rw [after3_5]
    unfold out3_5
    rw [View.canon_unit_zero zeros2]
    simp only [View.ld_unit_zero (S := S10000x128) zeros2, View.ld_unit_zero (S := S1x128) zeros2]
    funext j
    obtain ⟨p, q, rfl⟩ : ∃ (p : Fin 10000) (q : Fin 128), j = ix2 p q := ⟨j 0, j 1, eq_ix2 j⟩
    show k3_pay1 (iblk3 V c 0 t) (iblk3 V c 1 t) (iblk3 V c 2 t) (iblk3 V c 3 t) (iblk3 V c 4 t) (ix2 p q)
      = Cert.Spec.normRelu _ _ _ _ _ (((cfg3.win 5).blk t).view.emb (ix2 p q))
    have hr : ∀ {n0 n1 : ℕ}, n0 = t.val → n1 = 0 → n0 * 10000 + 1 * p.val = win3_5.index t (0 : Fin 2) * 10000 + 1 * p.val
        ∧ n1 * 128 + 1 * q.val = win3_5.index t (1 : Fin 2) * 128 + 1 * q.val :=
      fun h0 h1 => by subst h0 h1; rw [e0, e1]; exact ⟨rfl, rfl⟩
    have hz : ∀ {n0 n1 : ℕ}, n0 = 0 → n1 = 0 → n0 * 1 + 1 * 0 = 0 ∧ n1 * 128 + 1 * q.val = win3_5.index t (1 : Fin 2) * 128 + 1 * q.val :=
      fun h0 h1 => by subst h0 h1; rw [e1]; exact ⟨rfl, rfl⟩
    exact point3 _ _ _ _ _ _ _ _ _ _ p q _ (congrArg (V c main_v41_0) (Shape.idx_ext₂ (hr a0 a1).1 (hr a0 a1).2))
      (congrArg (V c main_v54) (Shape.idx_ext₂ (hz m0 m1).1 (hz m0 m1).2))
      (congrArg (V c main_v55) (Shape.idx_ext₂ (hz s0 s1).1 (hz s0 s1).2))
      (congrArg (V c main_v56) (Shape.idx_ext₂ (hz g0 g1).1 (hz g0 g1).2))
      (congrArg (V c main_v57) (Shape.idx_ext₂ (hz b0 b1).1 (hz b0 b1).2))

end Cert.KernelIdeal.Hand

end
-- ==== Proof.KI.Value4.lean ====
/-
  The second normalisation launch, over 800000 rows: the same stored block as the first, so the same entry.
-/
import proofs.«418560_j60430189855387_3_alg».proof.Proof.KI.Region4
import proofs.«418560_j60430189855387_3_alg».proof.Proof.KI.Value3

noncomputable section

namespace Cert.KernelIdeal.Hand

open Cert.KernelIdeal Cert.KernelIdeal.Gen Cert.LibBlocks
open Idealize.ShloMosaic Idealize.ShloMosaic.TcCoe Idealize.ShloMosaic.ValueIdx
open Idealize.SL.Sem
open Idealize.ShloMosaic.Pipeline (Dat Cfg Window)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

theorem arr4_5 (c : Dev nD) : (dat4 V c).arrAt 5 cfg4.N
    = Cert.Spec.normRelu (V c main_v19_0) (Cert.Spec.rowVec (V c main_v59)) (Cert.Spec.rowVec (V c main_v60))
        (Cert.Spec.rowVec (V c main_v61)) (Cert.Spec.rowVec (V c main_v62)) :=
  arrAt_eq_of_rows (dat4 V c) 5 (0 : Fin 2) _ (Memref.isWhole_whole _) flush4_5 (fun _ _ => rfl) (by decide) (by decide)
    (by decide) fun t => by
    obtain ⟨a0, a1, m0, m1, s0, s1, g0, g1, b0, b1, e0, e1⟩ := idx_facts4 t
    refine ⟨step2 e0 e1, ?_⟩
    show (cfg4.win 5).cut (grid4.coords t) ((dat4 V c).after 5 t) = _
    rw [after4_5]
    unfold out4_5
    rw [View.canon_unit_zero zeros2]
    simp only [View.ld_unit_zero (S := S10000x128) zeros2, View.ld_unit_zero (S := S1x128) zeros2]
    funext j
    obtain ⟨p, q, rfl⟩ : ∃ (p : Fin 10000) (q : Fin 128), j = ix2 p q := ⟨j 0, j 1, eq_ix2 j⟩
    show k3_pay1 (iblk4 V c 0 t) (iblk4 V c 1 t) (iblk4 V c 2 t) (iblk4 V c 3 t) (iblk4 V c 4 t) (ix2 p q)
      = Cert.Spec.normRelu _ _ _ _ _ (((cfg4.win 5).blk t).view.emb (ix2 p q))
    have hr : ∀ {n0 n1 : ℕ}, n0 = t.val → n1 = 0 → n0 * 10000 + 1 * p.val = win4_5.index t (0 : Fin 2) * 10000 + 1 * p.val
        ∧ n1 * 128 + 1 * q.val = win4_5.index t (1 : Fin 2) * 128 + 1 * q.val :=
      fun h0 h1 => by subst h0 h1; rw [e0, e1]; exact ⟨rfl, rfl⟩
    have hz : ∀ {n0 n1 : ℕ}, n0 = 0 → n1 = 0 → n0 * 1 + 1 * 0 = 0 ∧ n1 * 128 + 1 * q.val = win4_5.index t (1 : Fin 2) * 128 + 1 * q.val :=
      fun h0 h1 => by subst h0 h1; rw [e1]; exact ⟨rfl, rfl⟩
    exact point3 _ _ _ _ _ _ _ _ _ _ p q _ (congrArg (V c main_v19_0) (Shape.idx_ext₂ (hr a0 a1).1 (hr a0 a1).2))
      (congrArg (V c main_v59) (Shape.idx_ext₂ (hz m0 m1).1 (hz m0 m1).2))
      (congrArg (V c main_v60) (Shape.idx_ext₂ (hz s0 s1).1 (hz s0 s1).2))
      (congrArg (V c main_v61) (Shape.idx_ext₂ (hz g0 g1).1 (hz g0 g1).2))
      (congrArg (V c main_v62) (Shape.idx_ext₂ (hz b0 b1).1 (hz b0 b1).2))

end Cert.KernelIdeal.Hand

end
-- ==== Proof.KI.Value.lean ====
/- The blocked program's two results as the layer's functions of the launch contents: boundary by boundary, each
   buffer a later step reads is the layer's function of what the buffers hold at launch. -/
import proofs.«418560_j60430189855387_3_alg».proof.Proof.KI.Run
import proofs.«418560_j60430189855387_3_alg».proof.Proof.KI.HostReads
import proofs.«418560_j60430189855387_3_alg».proof.Proof.KI.Value0
import proofs.«418560_j60430189855387_3_alg».proof.Proof.KI.Value1
import proofs.«418560_j60430189855387_3_alg».proof.Proof.KI.Value2
import proofs.«418560_j60430189855387_3_alg».proof.Proof.KI.Value3
import proofs.«418560_j60430189855387_3_alg».proof.Proof.KI.Value4

noncomputable section

namespace Cert.KernelIdeal.Hand

open Cert.KernelIdeal Cert.KernelIdeal.Gen Cert.Spec HostStages
open Idealize.ShloMosaic Idealize.ShloMosaic.TcCoe Idealize.ShloMosaic.ValueIdx Idealize.SL.Sem

variable (m : (ℓ : Loc nD τ sig) → Buf (Elt Ideal) ℓ) (c : Dev nD)

abbrev inX : A2 50000 128 := m ((c.tc : Thread nD τ).loc main_arg0)
abbrev inE : A2 800000 128 := m ((c.tc : Thread nD τ).loc main_arg1)
abbrev inEi : (S2 2 800000).Idx → BitVec 32 := m ((c.tc : Thread nD τ).loc main_arg2)
abbrev inWA : A2 128 128 := m ((c.tc : Thread nD τ).loc main_arg3)
abbrev inbA : A1 128 := m ((c.tc : Thread nD τ).loc main_arg4)
abbrev inWB : A2 128 128 := m ((c.tc : Thread nD τ).loc main_arg5)
abbrev inbB : A1 128 := m ((c.tc : Thread nD τ).loc main_arg6)
abbrev inWC : A2 128 128 := m ((c.tc : Thread nD τ).loc main_arg7)
abbrev inbC : A1 128 := m ((c.tc : Thread nD τ).loc main_arg8)
abbrev inWD : A2 128 128 := m ((c.tc : Thread nD τ).loc main_arg9)
abbrev inbD : A1 128 := m ((c.tc : Thread nD τ).loc main_arg10)
abbrev inWE : A2 128 128 := m ((c.tc : Thread nD τ).loc main_arg11)
abbrev inbE : A1 128 := m ((c.tc : Thread nD τ).loc main_arg12)
abbrev inGx : A1 128 := m ((c.tc : Thread nD τ).loc main_arg13)
abbrev inBx : A1 128 := m ((c.tc : Thread nD τ).loc main_arg14)
abbrev inGe : A1 128 := m ((c.tc : Thread nD τ).loc main_arg15)
abbrev inBe : A1 128 := m ((c.tc : Thread nD τ).loc main_arg16)

abbrev sDst : I2 800000 1 := endpoint 1 (inEi m c)
abbrev sSrc : I2 800000 1 := endpoint 0 (inEi m c)
private abbrev pA : A2 50000 128 := lin (inX m c) (inWA m c) (inbA m c)
private abbrev pB : A2 50000 128 := lin (inX m c) (inWB m c) (inbB m c)
private abbrev pD : A2 50000 128 := lin (inX m c) (inWD m c) (inbD m c)
private abbrev pE : A2 50000 128 := lin (inX m c) (inWE m c) (inbE m c)
abbrev sEij : A2 800000 128 :=
  eij (inX m c) (inE m c) (sDst m c) (sSrc m c) (inWC m c) (inWD m c) (inWE m c) (inbC m c) (inbD m c) (inbE m c)
abbrev sHx : A2 50000 128 :=
  hx (inX m c) (inE m c) (sDst m c) (sSrc m c) (inWA m c) (inWB m c) (inWC m c) (inWD m c) (inWE m c)
    (inbA m c) (inbB m c) (inbC m c) (inbD m c) (inbE m c)

/-- A buffer that holds what the first stretch left in an endpoint row reads, stood up as a column, as that endpoint. -/
private theorem src_at {V : Valuation τ sig (Elt Ideal)} (e : V main_v1 = W1 m c main_v1) (h : S800000.BroadcastsInDim S800000x1 ![0]) :
    broadcastInDim S800000x1 ![0] h (V main_v1) = sSrc m c := by
  rw [e]; exact ops0_v1 (W0 m c) h
private theorem dst_at {V : Valuation τ sig (Elt Ideal)} (e : V main_v3 = W1 m c main_v3) (h : S800000.BroadcastsInDim S800000x1 ![0]) :
    broadcastInDim S800000x1 ![0] h (V main_v3) = sDst m c := by
  rw [e]; exact ops0_v3 (W0 m c) h

theorem W2_v7 : W2 m c main_v7 = linWide (inX m c) (catW ![inWA m c, inWB m c, inWD m c, inWE m c])
    (catB ![inbA m c, inbB m c, inbD m c, inbE m c]) := by
  refine (W2_arr m c 3).trans ((arr0_3 (V1 m) c).trans ?_)
  show linWide (W1 m c main_arg0) (W1 m c main_v4) (W1 m c main_v6) = _
  rw [W1_keep m c main_arg0 (by decide), show W1 m c main_v4 = _ from ops0_v4 (W0 m c),
    show W1 m c main_v6 = _ from ops0_v6 (W0 m c)]

theorem W3_v8 : W3 m c main_v8 = pA m c := ops1_v8 _ (W2_v7 m c)
theorem W3_v14 : W3 m c main_v14 = pB m c := ops1_v14 _ (W2_v7 m c)
theorem W3_v12 : W3 m c main_v12 = pD m c := ops1_v12 _ (W2_v7 m c)
theorem W3_v13 : W3 m c main_v13 = pE m c := ops1_v13 _ (W2_v7 m c)

theorem W4_v15 : W4 m c main_v15 = take (pD m c) (sDst m c) :=
  ops11_v15 _ (W3_v12 m c) (dst_at m c ((W3_keep m c main_v3 (by decide)).trans (W2_keep m c main_v3 (by decide))))
theorem W5_v16 : W5 m c main_v16 = take (pE m c) (sSrc m c) :=
  ops12_v16 _ ((W4_keep m c main_v13 (by decide)).trans (W3_v13 m c)) (src_at m c (((W4_keep m c main_v1 (by decide)).trans (W3_keep m c main_v1 (by decide))).trans (W2_keep m c main_v1 (by decide))))
theorem W6_v17 : W6 m c main_v17 = take (pB m c) (sSrc m c) :=
  ops13_v17 _ (((W5_keep m c main_v14 (by decide)).trans (W4_keep m c main_v14 (by decide))).trans (W3_v14 m c)) (src_at m c ((((W5_keep m c main_v1 (by decide)).trans (W4_keep m c main_v1 (by decide))).trans (W3_keep m c main_v1 (by decide))).trans (W2_keep m c main_v1 (by decide))))

/-- A buffer nothing writes before the edge launch holds what it held at launch. -/
theorem W7_kept (b : Ref sig .tc)
    (h : b ∉ hostOps0_W ++ outs0 ++ hostOps1_W ++ hostOps1_1_W ++ hostOps1_2_W ++ hostOps1_3_W ++ hostOps1_4_W) :
    W7 m c b = m ((c.tc : Thread nD τ).loc b) := by
  simp only [List.mem_append, not_or] at h
  obtain ⟨⟨⟨⟨⟨⟨h0, g0⟩, h1⟩, h11⟩, h12⟩, h13⟩, h14⟩ := h
  rw [W7_keep m c b h14, W6_keep m c b h13, W5_keep m c b h12, W4_keep m c b h11, W3_keep m c b h1, W2_keep m c b g0,
    W1_keep m c b h0]

/-- The message the edge launch is entered with is the layer's. -/
theorem msg7 : msgArr (V7 m) c = sEij m c := by
  show msg (W7 m c main_v15) (W7 m c main_v16) (lin (W7 m c main_arg1) (W7 m c main_arg7) (rowVec (W7 m c main_v18))) = _
  rw [(((W7_keep m c main_v15 (by decide)).trans (W6_keep m c main_v15 (by decide))).trans (W5_keep m c main_v15 (by decide))).trans (W4_v15 m c),
    ((W7_keep m c main_v16 (by decide)).trans (W6_keep m c main_v16 (by decide))).trans (W5_v16 m c), ops14_v18 (W6 m c),
    W7_kept m c main_arg1 (by decide), W7_kept m c main_arg7 (by decide),
    ((((((W6_keep m c main_arg8 (by decide)).trans (W5_keep m c main_arg8 (by decide))).trans (W4_keep m c main_arg8 (by decide))).trans (W3_keep m c main_arg8 (by decide))).trans (W2_keep m c main_arg8 (by decide))).trans (W1_keep m c main_arg8 (by decide)))]
  rfl

theorem W8_v19_0 : W8 m c main_v19_0 = sEij m c :=
  (W8_arr m c 6).trans ((arr1_6 (V7 m) c).trans (msg7 m c))
theorem W8_v19_2 : W8 m c main_v19_2 = gate (sEij m c) :=
  (W8_arr m c 8).trans ((arr1_8 (V7 m) c).trans (congrArg gate (msg7 m c)))
theorem W8_v19_1 : W8 m c main_v19_1 = gated (gate (sEij m c)) (take (pB m c) (sSrc m c)) := by
  refine (W8_arr m c 7).trans ((arr1_7 (V7 m) c).trans ?_)
  show gated (gate (msgArr (V7 m) c)) (W7 m c main_v17) = _
  rw [msg7, (W7_keep m c main_v17 (by decide)).trans (W6_v17 m c)]
theorem W8_v19_3 : W8 m c main_v19_3 = blockSums 250 3200 (sEij m c) :=
  (W8_arr m c 9).trans ((arr1_9 (V7 m) c).trans (congrArg (blockSums 250 3200) (msg7 m c)))
theorem W8_v19_4 : W8 m c main_v19_4 = blockSums 250 3200 (sq (sEij m c)) :=
  (W8_arr m c 10).trans ((arr1_10 (V7 m) c).trans (congrArg (fun v => blockSums 250 3200 (sq v)) (msg7 m c)))

theorem W9_v24 : W9 m c main_v24 = colMean nEdges (sEij m c) := ops2_v24 _ (W8_v19_3 m c)
theorem W9_v31 : W9 m c main_v31 = colVarMoments nEdges (sEij m c) := ops2_v31 _ (W8_v19_3 m c) (W8_v19_4 m c)

theorem upd9 : upd (V9 m c main_v8) (V9 m c main_v40) = sHx m c := by
  show upd (W9 m c main_v8) (W9 m c main_v40) = _
  rw [((((((W9_keep m c main_v8 (by decide)).trans (W8_keep m c main_v8 (by decide))).trans (W7_keep m c main_v8 (by decide))).trans (W6_keep m c main_v8 (by decide))).trans (W5_keep m c main_v8 (by decide))).trans (W4_keep m c main_v8 (by decide))).trans (W3_v8 m c),
    show W9 m c main_v40 = _ from ops2_v40 _ (dst_at m c (((((((W8_keep m c main_v3 (by decide)).trans (W7_keep m c main_v3 (by decide))).trans (W6_keep m c main_v3 (by decide))).trans (W5_keep m c main_v3 (by decide))).trans (W4_keep m c main_v3 (by decide))).trans (W3_keep m c main_v3 (by decide))).trans (W2_keep m c main_v3 (by decide)))) (W8_v19_1 m c) (W8_v19_2 m c)]
  rfl

theorem W10_v41_0 : W10 m c main_v41_0 = sHx m c :=
  (W10_arr m c 2).trans ((arr2_2 (V9 m) c).trans (upd9 m c))
theorem W10_v41_1 : W10 m c main_v41_1 = blockSums 25 2000 (sHx m c) :=
  (W10_arr m c 3).trans ((arr2_3 (V9 m) c).trans (congrArg (blockSums 25 2000) (upd9 m c)))
theorem W10_v41_2 : W10 m c main_v41_2 = blockSums 25 2000 (sq (sHx m c)) :=
  (W10_arr m c 4).trans ((arr2_4 (V9 m) c).trans (congrArg (fun v => blockSums 25 2000 (sq v)) (upd9 m c)))

/-- A buffer nothing writes before the last launch holds what it held at launch. -/
theorem W12_kept (b : Ref sig .tc)
    (h : b ∉ hostOps0_W ++ outs0 ++ hostOps1_W ++ hostOps1_1_W ++ hostOps1_2_W ++ hostOps1_3_W ++ hostOps1_4_W ++ outs1 ++ hostOps2_W ++ outs2 ++ hostOps3_W ++ outs3) :
    W12 m c b = m ((c.tc : Thread nD τ).loc b) := by
  simp only [List.mem_append, not_or] at h
  obtain ⟨⟨⟨⟨⟨h7, g1⟩, h2⟩, g2⟩, h3⟩, g3⟩ := h
  rw [W12_keep m c b g3, W11_keep m c b h3, W10_keep m c b g2, W9_keep m c b h2, W8_keep m c b g1]
  exact W7_kept m c b (by simp only [List.mem_append, not_or]; exact h7)

/-- The two results as the layer's functions of the launch contents. -/
theorem results (m : (ℓ : Loc nD τ sig) → Buf (Elt Ideal) ℓ) (c : Dev nD) :
    (dat3 (V11 m) c).arrAt 5 cfg3.N
        = xOutMoments (inX m c) (inE m c) (sDst m c) (sSrc m c) (inWA m c) (inWB m c) (inWC m c) (inWD m c) (inWE m c)
            (inbA m c) (inbB m c) (inbC m c) (inbD m c) (inbE m c) (inGx m c) (inBx m c)
      ∧ (dat4 (V13 m) c).arrAt 5 cfg4.N
        = eOutMoments (inX m c) (inE m c) (sDst m c) (sSrc m c) (inWC m c) (inWD m c) (inWE m c)
            (inbC m c) (inbD m c) (inbE m c) (inGe m c) (inBe m c) := by
  refine ⟨(arr3_5 (V11 m) c).trans ?_, (arr4_5 (V13 m) c).trans ?_⟩
  · show normRelu (W11 m c main_v41_0) (rowVec (W11 m c main_v54)) (rowVec (W11 m c main_v55)) (rowVec (W11 m c main_v56))
      (rowVec (W11 m c main_v57)) = _
    rw [(W11_keep m c main_v41_0 (by decide)).trans (W10_v41_0 m c), ops3_v54 _ (W10_v41_1 m c),
      ops3_v55 _ (W10_v41_1 m c) (W10_v41_2 m c), ops3_v56, ops3_v57,
      (((W10_keep m c main_arg13 (by decide)).trans (W9_keep m c main_arg13 (by decide))).trans (W8_keep m c main_arg13 (by decide))).trans (W7_kept m c main_arg13 (by decide)),
      (((W10_keep m c main_arg14 (by decide)).trans (W9_keep m c main_arg14 (by decide))).trans (W8_keep m c main_arg14 (by decide))).trans (W7_kept m c main_arg14 (by decide))]
    rfl
  · show normRelu (W13 m c main_v19_0) (rowVec (W13 m c main_v59)) (rowVec (W13 m c main_v60)) (rowVec (W13 m c main_v61))
      (rowVec (W13 m c main_v62)) = _
    rw [(((((W13_keep m c main_v19_0 (by decide)).trans (W12_keep m c main_v19_0 (by decide))).trans (W11_keep m c main_v19_0 (by decide))).trans (W10_keep m c main_v19_0 (by decide))).trans (W9_keep m c main_v19_0 (by decide))).trans (W8_v19_0 m c),
      ops4_v59, ops4_v60, ops4_v61, ops4_v62,
      (((W12_keep m c main_v24 (by decide)).trans (W11_keep m c main_v24 (by decide))).trans (W10_keep m c main_v24 (by decide))).trans (W9_v24 m c),
      (((W12_keep m c main_v31 (by decide)).trans (W11_keep m c main_v31 (by decide))).trans (W10_keep m c main_v31 (by decide))).trans (W9_v31 m c),
      W12_kept m c main_arg15 (by decide), W12_kept m c main_arg16 (by decide)]
    rfl

end Cert.KernelIdeal.Hand

end
-- ==== Proof.Ref.Ops.lean ====
/- The reference program's operations, in order, as lists: fourteen consecutive stretches, named by what each computes. -/
import proofs.«418560_j60430189855387_3_alg».proof.Proof.Gen.ReferenceIdeal
import Idealize.ShloMosaic.Lib.StableHlo

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An array of shape S with elements of type e. -/
abbrev Arr (S : Shape) (e : EltTy) : Type := (⟨S, e⟩ : BufTy).Contents (Elt F)

abbrev opsIdx : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

abbrev opsLin : List (HloOp τ sig (Elt F)) :=
  [ StableHlo.binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v5 (broadcastInDim S1x128 ![1] bcast_S128_S1x128_1 : Arr S128 .f32 → Arr S1x128 .f32),
    StableHlo.unary main_v5 main_v6 (broadcastInDim S50000x128 ![0, 1] bcast_S1x128_S50000x128_0_1 : Arr S1x128 .f32 → Arr S50000x128 .f32),
    StableHlo.binary main_v4 main_v6 main_v7 (addf : Arr S50000x128 .f32 → Arr S50000x128 .f32 → Arr S50000x128 .f32),
    StableHlo.binary main_arg0 main_arg5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v9 (broadcastInDim S1x128 ![1] bcast_S128_S1x128_1 : Arr S128 .f32 → Arr S1x128 .f32),
    StableHlo.unary main_v9 main_v10 (broadcastInDim S50000x128 ![0, 1] bcast_S1x128_S50000x128_0_1 : Arr S1x128 .f32 → Arr S50000x128 .f32),
    StableHlo.binary main_v8 main_v10 main_v11 (addf : Arr S50000x128 .f32 → Arr S50000x128 .f32 → Arr S50000x128 .f32),
    StableHlo.binary main_arg1 main_arg7 main_v12 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg8 main_v13 (broadcastInDim S1x128 ![1] bcast_S128_S1x128_1 : Arr S128 .f32 → Arr S1x128 .f32),
    StableHlo.unary main_v13 main_v14 (broadcastInDim S800000x128 ![0, 1] bcast_S1x128_S800000x128_0_1 : Arr S1x128 .f32 → Arr S800000x128 .f32),
    StableHlo.binary main_v12 main_v14 main_v15 (addf : Arr S800000x128 .f32 → Arr S800000x128 .f32 → Arr S800000x128 .f32),
    StableHlo.binary main_arg0 main_arg9 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v17 (broadcastInDim S1x128 ![1] bcast_S128_S1x128_1 : Arr S128 .f32 → Arr S1x128 .f32),
    StableHlo.unary main_v17 main_v18 (broadcastInDim S50000x128 ![0, 1] bcast_S1x128_S50000x128_0_1 : Arr S1x128 .f32 → Arr S50000x128 .f32),
    StableHlo.binary main_v16 main_v18 main_v19 (addf : Arr S50000x128 .f32 → Arr S50000x128 .f32 → Arr S50000x128 .f32),
    StableHlo.binary main_arg0 main_arg11 main_v20 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v21 (broadcastInDim S1x128 ![1] bcast_S128_S1x128_1 : Arr S128 .f32 → Arr S1x128 .f32),
    StableHlo.unary main_v21 main_v22 (broadcastInDim S50000x128 ![0, 1] bcast_S1x128_S50000x128_0_1 : Arr S1x128 .f32 → Arr S50000x128 .f32),
    StableHlo.binary main_v20 main_v22 main_v23 (addf : Arr S50000x128 .f32 → Arr S50000x128 .f32 → Arr S50000x128 .f32) ]

abbrev opsEij : List (HloOp τ sig (Elt F)) :=
  [ StableHlo.nullary main_c (constantI S_ 32 0#32),
    StableHlo.unary main_c main_v24 (broadcastInDim S800000 ![] bcast_S_S800000 : Arr S_ .i32 → Arr S800000 .i32),
    StableHlo.binary main_v3 main_v24 main_v25 (cmpi .slt : Arr S800000 .i32 → Arr S800000 .i32 → Arr S800000 .i1),
    StableHlo.nullary main_c_0 (constantI S_ 32 50000#32),
    StableHlo.unary main_c_0 main_v26 (broadcastInDim S800000 ![] bcast_S_S800000 : Arr S_ .i32 → Arr S800000 .i32),
    StableHlo.binary main_v3 main_v26 main_v27 (addi : Arr S800000 .i32 → Arr S800000 .i32 → Arr S800000 .i32),
    StableHlo.ternary main_v25 main_v27 main_v3 main_v28 (select : Arr S800000 .i1 → Arr S800000 .i32 → Arr S800000 .i32 → Arr S800000 .i32),
    StableHlo.unary main_v28 main_v29 (broadcastInDim S800000x1 ![0] bcast_S800000_S800000x1_0 : Arr S800000 .i32 → Arr S800000x1 .i32),
    StableHlo.binary main_v19 main_v29 main_v30 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v31 (broadcastInDim S800000 ![] bcast_S_S800000 : Arr S_ .i32 → Arr S800000 .i32),
    StableHlo.binary main_v1 main_v31 main_v32 (cmpi .slt : Arr S800000 .i32 → Arr S800000 .i32 → Arr S800000 .i1),
    StableHlo.nullary main_c_2 (constantI S_ 32 50000#32),
    StableHlo.unary main_c_2 main_v33 (broadcastInDim S800000 ![] bcast_S_S800000 : Arr S_ .i32 → Arr S800000 .i32),
    StableHlo.binary main_v1 main_v33 main_v34 (addi : Arr S800000 .i32 → Arr S800000 .i32 → Arr S800000 .i32),
    StableHlo.ternary main_v32 main_v34 main_v1 main_v35 (select : Arr S800000 .i1 → Arr S800000 .i32 → Arr S800000 .i32 → Arr S800000 .i32),
    StableHlo.unary main_v35 main_v36 (broadcastInDim S800000x1 ![0] bcast_S800000_S800000x1_0 : Arr S800000 .i32 → Arr S800000x1 .i32),
    StableHlo.binary main_v23 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v30 main_v37 main_v38 (addf : Arr S800000x128 .f32 → Arr S800000x128 .f32 → Arr S800000x128 .f32),
    StableHlo.binary main_v38 main_v15 main_v39 (addf : Arr S800000x128 .f32 → Arr S800000x128 .f32 → Arr S800000x128 .f32) ]

abbrev opsSigma : List (HloOp τ sig (Elt F)) :=
  [ StableHlo.unary main_v39 main_v40 (Host.negf : Arr S800000x128 .f32 → Arr S800000x128 .f32),
    StableHlo.unary main_v40 main_v41 (Host.exp : Arr S800000x128 .f32 → Arr S800000x128 .f32),
    StableHlo.nullary main_cst (constant S_ .f32 0x3F800000#32),
    StableHlo.unary main_cst main_v42 (broadcastInDim S800000x128 ![] bcast_S_S800000x128 : Arr S_ .f32 → Arr S800000x128 .f32),
    StableHlo.binary main_v42 main_v41 main_v43 (addf : Arr S800000x128 .f32 → Arr S800000x128 .f32 → Arr S800000x128 .f32),
    StableHlo.nullary main_cst_3 (constant S_ .f32 0x3F800000#32),
    StableHlo.unary main_cst_3 main_v44 (broadcastInDim S800000x128 ![] bcast_S_S800000x128 : Arr S_ .f32 → Arr S800000x128 .f32),
    StableHlo.binary main_v44 main_v43 main_v45 (Host.divf : Arr S800000x128 .f32 → Arr S800000x128 .f32 → Arr S800000x128 .f32) ]

abbrev opsSrcIdx : List (HloOp τ sig (Elt F)) :=
  [ StableHlo.nullary main_c_4 (constantI S_ 32 0#32),
    StableHlo.unary main_c_4 main_v46 (broadcastInDim S800000 ![] bcast_S_S800000 : Arr S_ .i32 → Arr S800000 .i32),
    StableHlo.binary main_v1 main_v46 main_v47 (cmpi .slt : Arr S800000 .i32 → Arr S800000 .i32 → Arr S800000 .i1),
    StableHlo.nullary main_c_5 (constantI S_ 32 50000#32),
    StableHlo.unary main_c_5 main_v48 (broadcastInDim S800000 ![] bcast_S_S800000 : Arr S_ .i32 → Arr S800000 .i32),
    StableHlo.binary main_v1 main_v48 main_v49 (addi : Arr S800000 .i32 → Arr S800000 .i32 → Arr S800000 .i32),
    StableHlo.ternary main_v47 main_v49 main_v1 main_v50 (select : Arr S800000 .i1 → Arr S800000 .i32 → Arr S800000 .i32 → Arr S800000 .i32),
    StableHlo.unary main_v50 main_v51 (broadcastInDim S800000x1 ![0] bcast_S800000_S800000x1_0 : Arr S800000 .i32 → Arr S800000x1 .i32) ]

abbrev opsAggr : List (HloOp τ sig (Elt F)) :=
  [ StableHlo.binary main_v11 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v45 main_v52 main_v53 (mulf : Arr S800000x128 .f32 → Arr S800000x128 .f32 → Arr S800000x128 .f32),
    StableHlo.nullary main_cst_6 (constant S_ .f32 0x00000000#32),
    StableHlo.unary main_cst_6 main_v54 (broadcastInDim S50000x128 ![] bcast_S_S50000x128 : Arr S_ .f32 → Arr S50000x128 .f32),
    StableHlo.unary main_v3 main_v55 (broadcastInDim S800000x1 ![0] bcast_S800000_S800000x1_0 : Arr S800000 .i32 → Arr S800000x1 .i32),
    StableHlo.ternary main_v54 main_v55 main_v53 main_v56 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_7 (constant S_ .f32 0x00000000#32),
    StableHlo.unary main_cst_7 main_v57 (broadcastInDim S50000x128 ![] bcast_S_S50000x128 : Arr S_ .f32 → Arr S50000x128 .f32),
    StableHlo.unary main_v3 main_v58 (broadcastInDim S800000x1 ![0] bcast_S800000_S800000x1_0 : Arr S800000 .i32 → Arr S800000x1 .i32),
    StableHlo.ternary main_v57 main_v58 main_v45 main_v59 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_8 (constant S_ .f32 0x358637BD#32),
    StableHlo.unary main_cst_8 main_v60 (broadcastInDim S50000x128 ![] bcast_S_S50000x128 : Arr S_ .f32 → Arr S50000x128 .f32),
    StableHlo.binary main_v59 main_v60 main_v61 (addf : Arr S50000x128 .f32 → Arr S50000x128 .f32 → Arr S50000x128 .f32),
    StableHlo.binary main_v56 main_v61 main_v62 (Host.divf : Arr S50000x128 .f32 → Arr S50000x128 .f32 → Arr S50000x128 .f32),
    StableHlo.binary main_v7 main_v62 main_v63 (addf : Arr S50000x128 .f32 → Arr S50000x128 .f32 → Arr S50000x128 .f32) ]

abbrev opsMeanH : List (HloOp τ sig (Elt F)) :=
  [ StableHlo.nullary main_cst_9 (constant S_ .f32 0x00000000#32),
    StableHlo.binary main_v63 main_cst_9 main_v64 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v65 (broadcastInDim S128 ![] bcast_S_S128 : Arr S_ .f32 → Arr S128 .f32),
    StableHlo.binary main_v64 main_v65 main_v66 (Host.divf : Arr S128 .f32 → Arr S128 .f32 → Arr S128 .f32) ]

abbrev opsVarH : List (HloOp τ sig (Elt F)) :=
  [ StableHlo.nullary main_c_11 (constantI S_ 32 0#32),
    StableHlo.TRef.nullary main_call0.cst (constant S_ .f32 0x00000000#32),
    StableHlo.TRef.binary (.of main_v63 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v63 : StableHlo.TRef sig ⟨S50000x128, .f32⟩) main_call0.v4 main_call0.v5 subf,
    StableHlo.TRef.binary main_call0.v5 main_call0.v5 main_call0.v6 mulf,
    StableHlo.TRef.unary (.of main_c_11 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

abbrev opsNormH : List (HloOp τ sig (Elt F)) :=
  [ StableHlo.unary main_v66 main_v68 (broadcastInDim S1x128 ![1] bcast_S128_S1x128_1 : Arr S128 .f32 → Arr S1x128 .f32),
    StableHlo.unary main_v68 main_v69 (broadcastInDim S50000x128 ![0, 1] bcast_S1x128_S50000x128_0_1 : Arr S1x128 .f32 → Arr S50000x128 .f32),
    StableHlo.binary main_v63 main_v69 main_v70 (subf : Arr S50000x128 .f32 → Arr S50000x128 .f32 → Arr S50000x128 .f32),
    StableHlo.unary main_arg13 main_v71 (broadcastInDim S1x128 ![1] bcast_S128_S1x128_1 : Arr S128 .f32 → Arr S1x128 .f32),
    StableHlo.unary main_v71 main_v72 (broadcastInDim S50000x128 ![0, 1] bcast_S1x128_S50000x128_0_1 : Arr S1x128 .f32 → Arr S50000x128 .f32),
    StableHlo.binary main_v72 main_v70 main_v73 (mulf : Arr S50000x128 .f32 → Arr S50000x128 .f32 → Arr S50000x128 .f32),
    StableHlo.nullary main_cst_12 (constant S_ .f32 0x3727C5AC#32),
    StableHlo.unary main_cst_12 main_v74 (broadcastInDim S128 ![] bcast_S_S128 : Arr S_ .f32 → Arr S128 .f32),
    StableHlo.binary main_v67 main_v74 main_v75 (addf : Arr S128 .f32 → Arr S128 .f32 → Arr S128 .f32),
    StableHlo.unary main_v75 main_v76 (Host.rsqrt : Arr S128 .f32 → Arr S128 .f32),
    StableHlo.unary main_v76 main_v77 (broadcastInDim S1x128 ![1] bcast_S128_S1x128_1 : Arr S128 .f32 → Arr S1x128 .f32),
    StableHlo.unary main_v77 main_v78 (broadcastInDim S50000x128 ![0, 1] bcast_S1x128_S50000x128_0_1 : Arr S1x128 .f32 → Arr S50000x128 .f32),
    StableHlo.binary main_v73 main_v78 main_v79 (mulf : Arr S50000x128 .f32 → Arr S50000x128 .f32 → Arr S50000x128 .f32),
    StableHlo.unary main_arg14 main_v80 (broadcastInDim S1x128 ![1] bcast_S128_S1x128_1 : Arr S128 .f32 → Arr S1x128 .f32) ]

abbrev opsOutH : List (HloOp τ sig (Elt F)) :=
  [ StableHlo.unary main_v80 main_v81 (broadcastInDim S50000x128 ![0, 1] bcast_S1x128_S50000x128_0_1 : Arr S1x128 .f32 → Arr S50000x128 .f32),
    StableHlo.binary main_v79 main_v81 main_v82 (addf : Arr S50000x128 .f32 → Arr S50000x128 .f32 → Arr S50000x128 .f32),
    StableHlo.TRef.nullary main_call1.cst (constant S_ .f32 0x00000000#32),
    StableHlo.TRef.unary main_call1.cst main_call1.v0 (broadcastInDim S50000x128 ![] bcast_S_S50000x128),
    StableHlo.TRef.binary (.of main_v82 : StableHlo.TRef sig ⟨S50000x128, .f32⟩) main_call1.v0 main_call1.v1 maximumf ]

abbrev opsMeanE : List (HloOp τ sig (Elt F)) :=
  [ StableHlo.nullary main_cst_13 (constant S_ .f32 0x00000000#32),
    StableHlo.binary main_v39 main_cst_13 main_v84 ((fun x v => Host.reduceAdd x v reducesTo_S800000x128_S128_d0 h_S_) : (⟨S800000x128, .f32⟩ : BufTy).Contents (Elt F) → (⟨S_, .f32⟩ : BufTy).Contents (Elt F) → (⟨S128, .f32⟩ : BufTy).Contents (Elt F)),
    StableHlo.nullary main_cst_14 (constant S_ .f32 0x49435000#32),
    StableHlo.unary main_cst_14 main_v85 (broadcastInDim S128 ![] bcast_S_S128 : Arr S_ .f32 → Arr S128 .f32),
    StableHlo.binary main_v84 main_v85 main_v86 (Host.divf : Arr S128 .f32 → Arr S128 .f32 → Arr S128 .f32) ]

abbrev opsVarE : List (HloOp τ sig (Elt F)) :=
  [ StableHlo.nullary main_c_15 (constantI S_ 32 0#32),
    StableHlo.TRef.nullary main_call2.cst (constant S_ .f32 0x00000000#32),
    StableHlo.TRef.binary (.of main_v39 : StableHlo.TRef sig ⟨S800000x128, .f32⟩) main_call2.cst main_call2.v0 (fun x v => Host.reduceAdd x v reducesTo_S800000x128_S128_d0 h_S_),
    StableHlo.TRef.unary main_call2.v0 main_call2.v1 (broadcastInDim S1x128 ![1] bcast_S128_S1x128_1),
    StableHlo.TRef.nullary main_call2.cst_0 (constant S_ .f32 0x49435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S800000x128 ![0, 1] bcast_S1x128_S800000x128_0_1),
    StableHlo.TRef.binary (.of main_v39 : StableHlo.TRef sig ⟨S800000x128, .f32⟩) main_call2.v4 main_call2.v5 subf,
    StableHlo.TRef.binary main_call2.v5 main_call2.v5 main_call2.v6 mulf,
    StableHlo.TRef.unary (.of main_c_15 : StableHlo.TRef sig ⟨S_, .i32⟩) main_call2.v7 (sitofp .f32),
    StableHlo.TRef.nullary main_call2.cst_1 (constant S_ .f32 0x49435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S800000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

abbrev opsNormE : List (HloOp τ sig (Elt F)) :=
  [ StableHlo.unary main_v86 main_v88 (broadcastInDim S1x128 ![1] bcast_S128_S1x128_1 : Arr S128 .f32 → Arr S1x128 .f32),
    StableHlo.unary main_v88 main_v89 (broadcastInDim S800000x128 ![0, 1] bcast_S1x128_S800000x128_0_1 : Arr S1x128 .f32 → Arr S800000x128 .f32),
    StableHlo.binary main_v39 main_v89 main_v90 (subf : Arr S800000x128 .f32 → Arr S800000x128 .f32 → Arr S800000x128 .f32),
    StableHlo.unary main_arg15 main_v91 (broadcastInDim S1x128 ![1] bcast_S128_S1x128_1 : Arr S128 .f32 → Arr S1x128 .f32),
    StableHlo.unary main_v91 main_v92 (broadcastInDim S800000x128 ![0, 1] bcast_S1x128_S800000x128_0_1 : Arr S1x128 .f32 → Arr S800000x128 .f32),
    StableHlo.binary main_v92 main_v90 main_v93 (mulf : Arr S800000x128 .f32 → Arr S800000x128 .f32 → Arr S800000x128 .f32),
    StableHlo.nullary main_cst_16 (constant S_ .f32 0x3727C5AC#32),
    StableHlo.unary main_cst_16 main_v94 (broadcastInDim S128 ![] bcast_S_S128 : Arr S_ .f32 → Arr S128 .f32),
    StableHlo.binary main_v87 main_v94 main_v95 (addf : Arr S128 .f32 → Arr S128 .f32 → Arr S128 .f32),
    StableHlo.unary main_v95 main_v96 (Host.rsqrt : Arr S128 .f32 → Arr S128 .f32),
    StableHlo.unary main_v96 main_v97 (broadcastInDim S1x128 ![1] bcast_S128_S1x128_1 : Arr S128 .f32 → Arr S1x128 .f32),
    StableHlo.unary main_v97 main_v98 (broadcastInDim S800000x128 ![0, 1] bcast_S1x128_S800000x128_0_1 : Arr S1x128 .f32 → Arr S800000x128 .f32),
    StableHlo.binary main_v93 main_v98 main_v99 (mulf : Arr S800000x128 .f32 → Arr S800000x128 .f32 → Arr S800000x128 .f32),
    StableHlo.unary main_arg16 main_v100 (broadcastInDim S1x128 ![1] bcast_S128_S1x128_1 : Arr S128 .f32 → Arr S1x128 .f32) ]

abbrev opsOutE : List (HloOp τ sig (Elt F)) :=
  [ StableHlo.unary main_v100 main_v101 (broadcastInDim S800000x128 ![0, 1] bcast_S1x128_S800000x128_0_1 : Arr S1x128 .f32 → Arr S800000x128 .f32),
    StableHlo.binary main_v99 main_v101 main_v102 (addf : Arr S800000x128 .f32 → Arr S800000x128 .f32 → Arr S800000x128 .f32),
    StableHlo.TRef.nullary main_call3.cst (constant S_ .f32 0x00000000#32),
    StableHlo.TRef.unary main_call3.cst main_call3.v0 (broadcastInDim S800000x128 ![] bcast_S_S800000x128),
    StableHlo.TRef.binary (.of main_v102 : StableHlo.TRef sig ⟨S800000x128, .f32⟩) main_call3.v0 main_call3.v1 maximumf ]

abbrev win0 : List (HloOp τ sig (Elt F)) := opsIdx ++ (opsLin ++ (opsEij ++ (opsSigma ++ (opsSrcIdx))))
abbrev win1 : List (HloOp τ sig (Elt F)) := opsAggr ++ (opsMeanH ++ (opsVarH ++ (opsNormH ++ (opsOutH ++ (opsMeanE ++ (opsVarE ++ (opsNormE)))))))
abbrev win2 : List (HloOp τ sig (Elt F)) := opsOutE

abbrev ops : List (HloOp τ sig (Elt F)) := win0 ++ (win1 ++ win2)

end Cert.ReferenceIdeal.Hand

end
-- ==== Proof.Ref.Run.lean ====
/- The reference program is the line `ops`; every weakly fair execution of it terminates with each buffer at the fold of
   the operations over the initial contents; no operation writes an argument. -/
import proofs.«418560_j60430189855387_3_alg».proof.Proof.Ref.Ops
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq win0 := rfl

/-- The called bodies unfolded at their call sites, both sides are one chain of steps. -/
theorem main_part1_eq (c : Dev nD) : main_part1 (F := F) c = seq win1 := by
  simp only [main_part1, fn_var.body, fn_var_0.body, fn_where.body, fn_relu.body, seq_append, seq, bind_assoc, pure_bind]
  rfl

theorem main_part2_eq (c : Dev nD) : main_part2 (F := F) c = seq win2 := by
  simp only [main_part2, fn_relu_1.body, seq, bind_assoc, pure_bind]

theorem main_eq (c : Dev nD) : main (F := F) c = seq ops := by
  rw [seq_append win0 (win1 ++ win2), seq_append win1 win2, ← main_part0_eq c, ← main_part1_eq c, ← main_part2_eq c]
  rfl

theorem ops_sub : (ops : List (HloOp τ sig (Elt F))).Forall fun op => op.bufs ⊆ tcRefs τ sig := by
  simp only [ops, win0, win1, win2, List.forall_append, List.Forall, nullary_bufs_sub, unary_bufs_sub, binary_bufs_sub,
    ternary_bufs_sub, reshape_bufs_sub, and_self]

/-- Each operation determines what it writes. -/
theorem ops_det : ∀ op ∈ (ops : List (HloOp τ sig (Elt F))), op.fresh = ∅ :=
  List.forall_iff_forall_mem.mp (by
    simp only [ops, win0, win1, win2, List.forall_append, List.Forall]
    and_intros <;> rfl)

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq (by decide) (by decide) defs main (fun _ => ops) main_eq (fun _ => ops_sub) m ρ (fun _ => ops_det)

/-- The fold of the whole line is the stretches' folds composed, first stretch innermost. -/
theorem after_ops (V : Valuation τ sig (Elt F)) :
    after ops V =
      after opsOutE (after opsNormE (after opsVarE (after opsMeanE (after opsOutH (after opsNormH (after opsVarH
        (after opsMeanH (after opsAggr (after opsSrcIdx (after opsSigma (after opsEij (after opsLin
          (after opsIdx V))))))))))))) := by
  simp only [ops, win0, win1, win2, StableHlo.after_append]

abbrev argRefs : List (Ref sig .tc) :=
  [main_arg0, main_arg1, main_arg2, main_arg3, main_arg4, main_arg5, main_arg6, main_arg7, main_arg8, main_arg9, main_arg10,
    main_arg11, main_arg12, main_arg13, main_arg14, main_arg15, main_arg16]

/-- A line that leaves every argument buffer as it found it. -/
def Keeps (l : List (HloOp τ sig (Elt F))) : Prop :=
  ∀ (V : Valuation τ sig (Elt F)), ∀ r ∈ argRefs, after l V (r : DevRef τ sig) = V (r : DevRef τ sig)

/-- An operation that writes no argument. -/
def Safe (op : HloOp τ sig (Elt F)) : Prop := ∀ r ∈ argRefs, (r : DevRef τ sig) ∉ op.writes

/-- An operation whose one result is not an argument writes none. -/
theorem safe_of {y : Ref sig .tc} (hy : y ∉ argRefs) {op : HloOp τ sig (Elt F)} (hw : op.writes = {(y : DevRef τ sig)}) :
    Safe op := fun r hr h => by
  rw [hw, Finset.mem_singleton] at h
  exact devRef_ne_of_ne (fun e : r = y => hy (e ▸ hr)) h

theorem Keeps.of_safe {l : List (HloOp τ sig (Elt F))} (h : l.Forall Safe) : Keeps l :=
  fun V r hr => after_of_forall_not_mem l V fun op hop => List.forall_iff_forall_mem.mp h op hop r hr

/-- On a literal list: operation by operation, the result buffer is no argument. -/
macro "keeps_all" : tactic =>
  `(tactic| (refine Keeps.of_safe ?_; simp only [List.Forall]; and_intros <;> exact safe_of (by decide) rfl))

theorem opsIdx_keeps : Keeps (opsIdx : List (HloOp τ sig (Elt F))) := by keeps_all
theorem opsLin_keeps : Keeps (opsLin : List (HloOp τ sig (Elt F))) := by keeps_all
theorem opsEij_keeps : Keeps (opsEij : List (HloOp τ sig (Elt F))) := by keeps_all
theorem opsSigma_keeps : Keeps (opsSigma : List (HloOp τ sig (Elt F))) := by keeps_all
theorem opsSrcIdx_keeps : Keeps (opsSrcIdx : List (HloOp τ sig (Elt F))) := by keeps_all
theorem opsAggr_keeps : Keeps (opsAggr : List (HloOp τ sig (Elt F))) := by keeps_all
theorem opsMeanH_keeps : Keeps (opsMeanH : List (HloOp τ sig (Elt F))) := by keeps_all
theorem opsVarH_keeps : Keeps (opsVarH : List (HloOp τ sig (Elt F))) := by keeps_all
theorem opsNormH_keeps : Keeps (opsNormH : List (HloOp τ sig (Elt F))) := by keeps_all
theorem opsOutH_keeps : Keeps (opsOutH : List (HloOp τ sig (Elt F))) := by keeps_all
theorem opsMeanE_keeps : Keeps (opsMeanE : List (HloOp τ sig (Elt F))) := by keeps_all
theorem opsVarE_keeps : Keeps (opsVarE : List (HloOp τ sig (Elt F))) := by keeps_all
theorem opsNormE_keeps : Keeps (opsNormE : List (HloOp τ sig (Elt F))) := by keeps_all
theorem opsOutE_keeps : Keeps (opsOutE : List (HloOp τ sig (Elt F))) := by keeps_all

theorem ops_keeps : Keeps (ops : List (HloOp τ sig (Elt F))) := .of_safe (by
  simp only [ops, win0, win1, win2, List.forall_append, List.Forall]; and_intros <;> exact safe_of (by decide) rfl)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by and_intros <;> exact (h c _).trans (ops_keeps _ _ (by decide))) (run_all m ρ)

end Cert.ReferenceIdeal.Hand

end
-- ==== Proof.Ref.Stages.lean ====
/- The reference's stages as the layer's mathematics: each group of operations, a pure function of its operands
   over the extended reals, is the specification's function of the same name, at any number of rows. -/
import proofs.«418560_j60430189855387_3_alg».proof.ReferenceIdeal
import proofs.«418560_j60430189855387_3_alg».proof.Proof.Gen.ReferenceIdeal
import proofs.«418560_j60430189855387_3_alg».proof.Proof.Spec
import proofs.«418560_j60430189855387_3_alg».proof.Proof.LibLayout
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.Stages

open Idealize.ShloMosaic Idealize.ShloMosaic.ValueIdx Cert.ReferenceIdeal Cert.ReferenceIdeal.Facts₀ Cert.Spec

section AnyFloat

variable {F : FTy → Type} [FloatOps F] {n : ℕ} (hb : S1x128.BroadcastsInDim (S2 n 128) ![0, 1])
  (hr : (S2 n 128).ReducesTo [0] S128) (N : BitVec 32)

/-- A row repeated over the n rows of a matrix. -/
abbrev rows (b : FVec F S128 .f32) : FVec F (S2 n 128) .f32 :=
  broadcastInDim (S2 n 128) ![0, 1] hb (broadcastInDim S1x128 ![1] bcast_S128_S1x128_1 b)

/-- The row count less the converted zero correction. -/
def cnt : FVec F S_ .f32 := subf (constant (F := F) S_ .f32 N) (sitofp .f32 (constantI S_ 32 0#32))

/-- The deviations from the column means, as the variance function takes them. -/
def dev (m : FVec F (S2 n 128) .f32) : FVec F (S2 n 128) .f32 :=
  subf m (broadcastInDim (S2 n 128) ![0, 1] hb
    (Host.divf (broadcastInDim S1x128 ![1] bcast_S128_S1x128_1 (Host.reduceAdd m (constant S_ .f32 0x00000000#32) hr h_S_))
      (broadcastInDim S1x128 ![] bcast_S_S1x128 (constant S_ .f32 N))))

/-- The variance function as the program composes it: a guarded mean of the squared deviations. -/
def rawVar (m : FVec F (S2 n 128) .f32) : FVec F S128 .f32 :=
  select (broadcastInDim S128 ![] bcast_S_S128 (cmpf .ogt (cnt (F := F) N) (constant S_ .f32 0x00000000#32)))
    (Host.divf (Host.reduceAdd (mulf (dev hb hr N m) (dev hb hr N m)) (constant S_ .f32 0x00000000#32) hr h_S_)
      (broadcastInDim S128 ![] bcast_S_S128 (cnt N)))
    (broadcastInDim S128 ![] bcast_S_S128 (id (constant S_ .f32 0x7FC00000#32)))

end AnyFloat

variable {n : ℕ} (hb : S1x128.BroadcastsInDim (S2 n 128) ![0, 1])

theorem rows_apply (b : FVec Ideal S128 .f32) (p : Fin n) (q : Fin 128) : rows hb b (ix2 p q) = b (ix1 q) :=
  (LibLayout.broadcastInDim_1b_ab_apply _ hb p q).trans (LibLayout.broadcastInDim_b_1b_apply b _ 0 q)

/-- The product plus the repeated bias row is x W + b. -/
theorem lin_eq (x : FVec Ideal (S2 n 128) .f32) (W : FVec Ideal S128x128 .f32) (b : FVec Ideal S128 .f32) :
    addf (Host.dotGeneral (DotDims.plain n 128 128) none x W) (rows hb b) = lin x W b := by
  funext i
  obtain ⟨p, q, rfl⟩ : ∃ p q, i = ix2 p q := ⟨i 0, i 1, eq_ix2 i⟩
  rw [addf_apply, rows_apply]
  show FloatOps.dotGeneral (DotDims.plain n 128 128) none .single x W (ix2 p q) + b (ix1 q) = _
  rw [LibLayout.dotGeneral_plain_apply]
  rfl

/-- Row o of an endpoint table, cut out and flattened. -/
abbrev row (o : ℕ) (hs : S2x800000.Slices ![o, 0] S1x800000) (ei : IVec S2x800000 32) : IVec S800000 32 :=
  shapeCast S800000 (extractStridedSlice S1x800000 ![o, 0] ei hs) shapeCasts_S1x800000_S800000

/-- The wrap of a negative index, as the program spells it. -/
abbrev wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrap does nothing to an index that names a node. -/
theorem wrap_id (v : IVec S800000 32) (h : ∀ i, 0 ≤ (v i).toInt ∧ (v i).toInt < 50000) : wrap v = v := by
  funext i
  have hz : broadcastInDim S800000 ![] bcast_S_S800000 (constantI S_ 32 0#32) i = 0#32 :=
    LibLayout.broadcastInDim_scalar_apply _ _ i
  have hlt : (v i).slt 0#32 = false := by
    simp only [BitVec.slt, BitVec.toInt_zero, decide_eq_false_iff_not, Int.not_lt]
    exact (h i).1
  show (if BitVec.ofBool ((v i).slt (broadcastInDim S800000 ![] bcast_S_S800000 (constantI S_ 32 0#32) i)) = 1 then _ else _) = _
  rw [hz, hlt]
  rfl

section Endpoint

variable (o : ℕ) (a : Fin 2) (ha : a.val = o) (hs : S2x800000.Slices ![o, 0] S1x800000) (ei : IVec S2x800000 32)
include ha

theorem row_apply (p : Fin 800000) : row o hs ei (ix1 p) = ei (ix2 a p) :=
  (shapeCast_1a_a_apply _ _ p).trans (slice2_axis0_apply o ei hs (0 : Fin 1) p a (by rw [ha]; rfl))

/-- Row a as a column is the specification's column of row a. -/
theorem endpoint_eq : broadcastInDim S800000x1 ![0] bcast_S800000_S800000x1_0 (row o hs ei) = endpoint a ei := by
  funext i
  obtain ⟨p, u, rfl⟩ : ∃ p u, i = ix2 p u := ⟨i 0, i 1, eq_ix2 i⟩
  rw [LibLayout.broadcastInDim_a_a1_apply, row_apply o a ha]
  rfl

/-- The same through the wrap, once every entry of the table names a node. -/
theorem wrapped_eq (h : InRange ei) :
    broadcastInDim S800000x1 ![0] bcast_S800000_S800000x1_0 (wrap (row o hs ei)) = endpoint a ei := by
  rw [wrap_id _ fun i => by
    obtain ⟨p, rfl⟩ : ∃ p, i = ix1 p := ⟨i 0, eq_ix1 i⟩
    rw [row_apply o a ha]; exact h _]
  exact endpoint_eq o a ha hs ei

end Endpoint

theorem gather_eq (T : FVec Ideal S50000x128 .f32) (idx : IVec S800000x1 32) :
    Host.gather gather_S50000x128_S800000x1_S800000x128_1_0_n_n_0_1_1128 T idx = take T idx := by
  rw [show gather_S50000x128_S800000x1_S800000x128_1_0_n_n_0_1_1128 = rowsOf from rfl]
  rfl

/-- Accumulation into a table of zeros is the sum over arriving edges. -/
theorem scatter_eq (idx : IVec S800000x1 32) (u : FVec Ideal S800000x128 .f32) :
    Host.scatterAdd scatter_S50000x128_S800000x1_S800000x128_1_0_0_1
        (broadcastInDim S50000x128 ![] bcast_S_S50000x128 (constant (F := Ideal) S_ .f32 0x00000000#32)) idx u
      = accum idx u := by
  rw [show broadcastInDim S50000x128 ![] bcast_S_S50000x128 (constant (F := Ideal) S_ .f32 0x00000000#32) = fun _ => (0 : EReal) from
      funext fun j => by rw [LibLayout.broadcastInDim_scalar_apply, constant_apply, Ideal.ofBits_zero_f32],
    show scatter_S50000x128_S800000x1_S800000x128_1_0_0_1 = intoRows from rfl]
  rfl

theorem gate_eq (v : FVec Ideal S800000x128 .f32) :
    Host.divf (broadcastInDim S800000x128 ![] bcast_S_S800000x128 (constant (F := Ideal) S_ .f32 0x3F800000#32))
        (addf (broadcastInDim S800000x128 ![] bcast_S_S800000x128 (constant (F := Ideal) S_ .f32 0x3F800000#32)) (Host.exp (Host.negf v)))
      = gate v := by
  funext i
  rw [hostDivf_apply, addf_apply, LibLayout.broadcastInDim_scalar_apply, constant_apply, Ideal.ofBits_one_f32]
  rfl

theorem aggr_eq (num den : FVec Ideal S50000x128 .f32) :
    Host.divf num (addf den (broadcastInDim S50000x128 ![] bcast_S_S50000x128 (constant (F := Ideal) S_ .f32 0x358637BD#32)))
      = aggr num den := by
  funext i
  rw [hostDivf_apply, addf_apply, LibLayout.broadcastInDim_scalar_apply]
  rfl

theorem cnt_apply (N : BitVec 32) (i : S_.Idx) : cnt (F := Ideal) N i = Ideal.ofBits .f32 N := by
  rw [cnt, subf_apply, constant_apply, sitofp_apply]
  show Ideal.ofBits .f32 N - (((0#32 : BitVec 32).toInt : ℝ) : EReal) = _
  simp

section Stats

variable (hr : (S2 n 128).ReducesTo [0] S128) (hR : (S2 n 128).Reduces [0] S128) (N : BitVec 32)
  (m : FVec Ideal (S2 n 128) .f32)
include hR

/-- The sum over the rows from a zero start, read at column q, is the sum of that column. -/
theorem colSum_apply (q : Fin 128) :
    Host.reduceAdd m (constant (F := Ideal) S_ .f32 0x00000000#32) hr h_S_ (ix1 q) = ∑ p : Fin n, m (ix2 p q) := by
  rw [hostReduceAdd_apply, constant_apply, Ideal.ofBits_zero_f32, Ideal.hostReduceAdd_single hr hR, zero_add]
  show ∑ p : Fin n, m (hR.lift (ix1 q) p) = _
  refine Finset.sum_congr rfl fun p _ => congrArg m ?_
  funext c
  match c with
  | ⟨0, _⟩ => exact Fin.ext rfl
  | ⟨1, _⟩ => exact Fin.ext rfl

theorem mean_eq :
    Host.divf (Host.reduceAdd m (constant (F := Ideal) S_ .f32 0x00000000#32) hr h_S_)
        (broadcastInDim S128 ![] bcast_S_S128 (constant (F := Ideal) S_ .f32 N))
      = colMean (Ideal.ofBits .f32 N) m := by
  funext j
  obtain ⟨q, rfl⟩ : ∃ q, j = ix1 q := ⟨j 0, eq_ix1 j⟩
  rw [hostDivf_apply, colSum_apply hr hR, LibLayout.broadcastInDim_scalar_apply]
  rfl

theorem dev_apply (p : Fin n) (q : Fin 128) :
    dev hb hr N m (ix2 p q) = m (ix2 p q) - colMean (Ideal.ofBits .f32 N) m (ix1 q) := by
  rw [dev, subf_apply, LibLayout.broadcastInDim_1b_ab_apply, hostDivf_apply, LibLayout.broadcastInDim_b_1b_apply,
    colSum_apply hr hR, LibLayout.broadcastInDim_scalar_apply]
  rfl

/-- The count is positive, so the guard keeps the quotient: the mean of the squared deviations. -/
theorem var_eq (hN : (0 : EReal) < Ideal.ofBits .f32 N) : rawVar hb hr N m = colVarCentred (Ideal.ofBits .f32 N) m := by
  funext j
  obtain ⟨q, rfl⟩ : ∃ q, j = ix1 q := ⟨j 0, eq_ix1 j⟩
  have hpos : FloatOps.cmpf (F := Ideal) (φ := .f32) .ogt (Ideal.ofBits .f32 N) (0 : EReal) = 1#1 := by
    show BitVec.ofBool (decide ((0 : EReal) < Ideal.ofBits .f32 N)) = 1#1
    rw [decide_eq_true hN]; rfl
  rw [rawVar, select_apply, LibLayout.broadcastInDim_scalar_apply, cmpf_apply, cnt_apply, constant_apply, Ideal.ofBits_zero_f32,
    hpos, select_one, hostDivf_apply, colSum_apply hr hR, LibLayout.broadcastInDim_scalar_apply, cnt_apply]
  show Ideal.div _ (Ideal.ofBits .f32 N) = Ideal.div _ (Ideal.ofBits .f32 N)
  refine congrArg (fun t => Ideal.div t (Ideal.ofBits .f32 N)) (Finset.sum_congr rfl fun p _ => ?_)
  rw [mulf_apply, dev_apply hb hr hR]

end Stats

theorem nNodes_pos : (0 : EReal) < Ideal.ofBits .f32 0x47435000#32 := by
  rw [show Ideal.ofBits .f32 0x47435000#32 = ((50000 : ℝ) : EReal) by simp [Ideal.ofBits, Ideal.ieee, -EReal.coe_mul]; norm_num]
  exact EReal.coe_pos.mpr (by norm_num)

theorem nEdges_pos : (0 : EReal) < Ideal.ofBits .f32 0x49435000#32 := by
  rw [show Ideal.ofBits .f32 0x49435000#32 = ((800000 : ℝ) : EReal) by simp [Ideal.ofBits, Ideal.ieee, -EReal.coe_mul]; norm_num]
  exact EReal.coe_pos.mpr (by norm_num)

/-- Centre, scale, multiply by the inverse root of the variance plus the small constant, shift, keep the positive part. -/
theorem normRelu_eq (hz : S_.BroadcastsInDim (S2 n 128) ![]) (h : FVec Ideal (S2 n 128) .f32) (mu var g b : FVec Ideal S128 .f32) :
    maximumf
        (addf (mulf (mulf (rows hb g) (subf h (rows hb mu)))
            (rows hb (Host.rsqrt (addf var (broadcastInDim S128 ![] bcast_S_S128 (constant (F := Ideal) S_ .f32 0x3727C5AC#32))))))
          (rows hb b))
        (broadcastInDim (S2 n 128) ![] hz (constant (F := Ideal) S_ .f32 0x00000000#32))
      = normRelu h mu var g b := by
  funext i
  obtain ⟨p, q, rfl⟩ : ∃ p q, i = ix2 p q := ⟨i 0, i 1, eq_ix2 i⟩
  rw [maximumf_apply, addf_apply, mulf_apply, mulf_apply, subf_apply, rows_apply, rows_apply, rows_apply, rows_apply,
    LibLayout.broadcastInDim_scalar_apply, constant_apply, Ideal.ofBits_zero_f32]
  show max (_ * _ * Ideal.rsqrt (var (ix1 q)
      + broadcastInDim S128 ![] bcast_S_S128 (constant (F := Ideal) S_ .f32 0x3727C5AC#32) (ix1 q)) + _) 0 = _
  rw [LibLayout.broadcastInDim_scalar_apply]
  rfl

end Cert.ReferenceIdeal.Stages

end
-- ==== Proof.Ref.Value.lean ====
/- The reference's two results as the layer's mathematics: the fold of the line is read stretch by stretch at an arbitrary
   valuation, each stretch's results as the specification's function of the buffers it reads, and chained from the start. -/
import proofs.«418560_j60430189855387_3_alg».proof.Proof.Ref.Run
import proofs.«418560_j60430189855387_3_alg».proof.Proof.Ref.Stages
import proofs.«418560_j60430189855387_3_alg».proof.Proof.Spec

noncomputable section

namespace Cert.ReferenceIdeal.Hand

open Cert.ReferenceIdeal Cert.ReferenceIdeal.Facts₀ Idealize.ShloMosaic Idealize.ShloMosaic.TcCoe Idealize.SL.Sem
  Idealize.ShloMosaic.StableHlo Cert.ReferenceIdeal.Stages

abbrev row0 (ei : IVec S2x800000 32) : IVec S800000 32 := row 0 slices_S2x800000_S1x800000_0_0 ei
abbrev row1 (ei : IVec S2x800000 32) : IVec S800000 32 := row 1 slices_S2x800000_S1x800000_1_0 ei
abbrev col (v : IVec S800000 32) : IVec S800000x1 32 := broadcastInDim S800000x1 ![0] bcast_S800000_S800000x1_0 v

section AnyFloat

variable {F : FTy → Type} [FloatOps F] (W : Valuation τ sig (Elt F))

/-- The variance stretch is read for any float values: the composed term does not depend on the arithmetic. -/
theorem raw_varH_v67 : after opsVarH W main_v67
    = rawVar bcast_S1x128_S50000x128_0_1 reducesTo_S50000x128_S128_d0 0x47435000#32 (W main_v63) := by
  after_results_simp
  first | done | rfl

theorem raw_varE_v87 : after opsVarE W main_v87
    = rawVar bcast_S1x128_S800000x128_0_1 reducesTo_S800000x128_S128_d0 0x49435000#32 (W main_v39) := by
  after_results_simp
  first | done | rfl

end AnyFloat

section Reads

variable (W : Valuation τ sig (Elt Ideal))

theorem rd_idx_v1 : after opsIdx W main_v1 = row0 (W main_arg2) := by
  after_results_simp; try rfl
theorem rd_idx_v3 : after opsIdx W main_v3 = row1 (W main_arg2) := by
  after_results_simp; try rfl

theorem rd_lin_v7 : after opsLin W main_v7 = Spec.lin (n := 50000) (W main_arg0) (W main_arg3) (W main_arg4) := by
  after_results_simp; exact lin_eq _ _ _ _
theorem rd_lin_v11 : after opsLin W main_v11 = Spec.lin (n := 50000) (W main_arg0) (W main_arg5) (W main_arg6) := by
  after_results_simp; exact lin_eq _ _ _ _
theorem rd_lin_v15 : after opsLin W main_v15 = Spec.lin (n := 800000) (W main_arg1) (W main_arg7) (W main_arg8) := by
  after_results_simp; exact lin_eq _ _ _ _
theorem rd_lin_v19 : after opsLin W main_v19 = Spec.lin (n := 50000) (W main_arg0) (W main_arg9) (W main_arg10) := by
  after_results_simp; exact lin_eq _ _ _ _
theorem rd_lin_v23 : after opsLin W main_v23 = Spec.lin (n := 50000) (W main_arg0) (W main_arg11) (W main_arg12) := by
  after_results_simp; exact lin_eq _ _ _ _
theorem pass_lin : after opsLin W main_v1 = W main_v1 ∧ after opsLin W main_v3 = W main_v3 := by
  refine ⟨?_, ?_⟩ <;> after_results_simp

theorem rd_eij_v39 : after opsEij W main_v39
    = Spec.msg (Spec.take (W main_v19) (col (wrap (W main_v3)))) (Spec.take (W main_v23) (col (wrap (W main_v1)))) (W main_v15) := by
  after_results_simp
  rw [gather_eq, gather_eq]
  rfl
theorem pass_eij : after opsEij W main_v1 = W main_v1 ∧ after opsEij W main_v3 = W main_v3
    ∧ after opsEij W main_v7 = W main_v7 ∧ after opsEij W main_v11 = W main_v11 := by
  refine ⟨?_, ?_, ?_, ?_⟩ <;> after_results_simp

theorem rd_sigma_v45 : after opsSigma W main_v45 = Spec.gate (W main_v39) := by
  after_results_simp; exact gate_eq _
theorem pass_sigma : after opsSigma W main_v1 = W main_v1 ∧ after opsSigma W main_v3 = W main_v3
    ∧ after opsSigma W main_v7 = W main_v7 ∧ after opsSigma W main_v11 = W main_v11 ∧ after opsSigma W main_v39 = W main_v39 := by
  refine ⟨?_, ?_, ?_, ?_, ?_⟩ <;> after_results_simp

theorem rd_src_v51 : after opsSrcIdx W main_v51 = col (wrap (W main_v1)) := by
  after_results_simp; try rfl
theorem pass_src : after opsSrcIdx W main_v3 = W main_v3 ∧ after opsSrcIdx W main_v7 = W main_v7
    ∧ after opsSrcIdx W main_v11 = W main_v11 ∧ after opsSrcIdx W main_v39 = W main_v39 ∧ after opsSrcIdx W main_v45 = W main_v45 := by
  refine ⟨?_, ?_, ?_, ?_, ?_⟩ <;> after_results_simp

theorem rd_aggr_v63 : after opsAggr W main_v63
    = Spec.upd (W main_v7)
        (Spec.aggr (Spec.accum (col (W main_v3)) (Spec.gated (W main_v45) (Spec.take (W main_v11) (W main_v51))))
          (Spec.accum (col (W main_v3)) (W main_v45))) := by
  after_results_simp
  rw [gather_eq, scatter_eq, scatter_eq, aggr_eq]
  rfl
theorem pass_aggr : after opsAggr W main_v39 = W main_v39 := by
  after_results_simp

theorem rd_meanH_v66 : after opsMeanH W main_v66 = Spec.colMean (n := 50000) Spec.nNodes (W main_v63) := by
  after_results_simp; exact mean_eq _ (by decide) _ _
theorem pass_meanH : after opsMeanH W main_v39 = W main_v39 ∧ after opsMeanH W main_v63 = W main_v63 := by
  refine ⟨?_, ?_⟩ <;> after_results_simp

theorem rd_varH_v67 : after opsVarH W main_v67 = Spec.colVarCentred (n := 50000) Spec.nNodes (W main_v63) :=
  (raw_varH_v67 W).trans (var_eq _ _ (by decide) _ _ nNodes_pos)
theorem pass_varH : after opsVarH W main_v39 = W main_v39 ∧ after opsVarH W main_v63 = W main_v63
    ∧ after opsVarH W main_v66 = W main_v66 := by
  refine ⟨?_, ?_, ?_⟩ <;> after_results_simp

theorem pass_normH : after opsNormH W main_v39 = W main_v39 := by
  after_results_simp
theorem pass_outH : after opsOutH W main_v39 = W main_v39 := by
  after_results_simp

theorem rd_normOutH_v83 : after opsOutH (after opsNormH W) main_v83
    = Spec.normRelu (n := 50000) (W main_v63) (W main_v66) (W main_v67) (W main_arg13) (W main_arg14) := by
  after_results_simp
  refine Eq.trans ?_ (normRelu_eq bcast_S1x128_S50000x128_0_1 bcast_S_S50000x128 _ _ _ _ _)
  rfl

theorem rd_meanE_v86 : after opsMeanE W main_v86 = Spec.colMean (n := 800000) Spec.nEdges (W main_v39) := by
  after_results_simp; exact mean_eq _ (by decide) _ _
theorem pass_meanE : after opsMeanE W main_v39 = W main_v39 ∧ after opsMeanE W main_v83 = W main_v83 := by
  refine ⟨?_, ?_⟩ <;> after_results_simp

theorem rd_varE_v87 : after opsVarE W main_v87 = Spec.colVarCentred (n := 800000) Spec.nEdges (W main_v39) :=
  (raw_varE_v87 W).trans (var_eq _ _ (by decide) _ _ nEdges_pos)
theorem pass_varE : after opsVarE W main_v39 = W main_v39 ∧ after opsVarE W main_v83 = W main_v83
    ∧ after opsVarE W main_v86 = W main_v86 := by
  refine ⟨?_, ?_, ?_⟩ <;> after_results_simp

theorem pass_normE : after opsNormE W main_v83 = W main_v83 := by
  after_results_simp
theorem pass_outE : after opsOutE W main_v83 = W main_v83 := by
  after_results_simp

theorem rd_normOutE_v103 : after opsOutE (after opsNormE W) main_v103
    = Spec.normRelu (n := 800000) (W main_v39) (W main_v86) (W main_v87) (W main_arg15) (W main_arg16) := by
  after_results_simp
  refine Eq.trans ?_ (normRelu_eq bcast_S1x128_S800000x128_0_1 bcast_S_S800000x128 _ _ _ _ _)
  rfl

end Reads

variable (V : Valuation τ sig (Elt Ideal))

/-- Each result is read back through the stretches to V's arguments; the endpoint table names nodes, so the wraps are the identity. -/
theorem results_of (hr : Spec.InRange (V main_arg2)) :
    after ops V main_v83 = Spec.xOutCentred (V main_arg0) (V main_arg1) (Spec.endpoint 1 (V main_arg2)) (Spec.endpoint 0 (V main_arg2)) (V main_arg3) (V main_arg5) (V main_arg7) (V main_arg9) (V main_arg11) (V main_arg4) (V main_arg6) (V main_arg8) (V main_arg10) (V main_arg12) (V main_arg13) (V main_arg14)
    ∧ after ops V main_v103 = Spec.eOutCentred (V main_arg0) (V main_arg1) (Spec.endpoint 1 (V main_arg2)) (Spec.endpoint 0 (V main_arg2)) (V main_arg7) (V main_arg9) (V main_arg11) (V main_arg8) (V main_arg10) (V main_arg12) (V main_arg15) (V main_arg16) := by
  rw [after_ops]
  simp (disch := decide) only [rd_normOutE_v103 _, rd_normOutH_v83 _, rd_varE_v87 _, rd_meanE_v86 _, rd_varH_v67 _,
    rd_meanH_v66 _, rd_aggr_v63 _, rd_src_v51 _, rd_sigma_v45 _, rd_eij_v39 _, rd_lin_v7 _, rd_lin_v11 _, rd_lin_v15 _,
    rd_lin_v19 _, rd_lin_v23 _, rd_idx_v1 _, rd_idx_v3 _, pass_lin _, pass_eij _, pass_sigma _, pass_src _, pass_aggr _,
    pass_meanH _, pass_varH _, pass_normH _, pass_outH _, pass_meanE _, pass_varE _, pass_normE _, pass_outE _,
    opsIdx_keeps _, opsLin_keeps _, opsEij_keeps _, opsSigma_keeps _, opsSrcIdx_keeps _, opsAggr_keeps _, opsMeanH_keeps _,
    opsVarH_keeps _, opsNormH_keeps _, opsOutH_keeps _, opsMeanE_keeps _, opsVarE_keeps _, opsNormE_keeps _,
    wrapped_eq 0 0 rfl slices_S2x800000_S1x800000_0_0 _ hr, wrapped_eq 1 1 rfl slices_S2x800000_S1x800000_1_0 _ hr,
    endpoint_eq 1 1 rfl slices_S2x800000_S1x800000_1_0 (V main_arg2)]
  exact ⟨rfl, rfl⟩

/-- Every weakly fair execution of the reference from a memory whose endpoint table names nodes terminates with the two
    results at the specification's outputs and the arguments unchanged. -/
theorem run (m : (ℓ : Loc nD τ sig) → Buf (Elt Ideal) ℓ) (ρ : Dev nD → PrngReg)
    (hr : ∀ c : Dev nD, Cert.Spec.InRange (m ((c.tc : Thread nD τ).loc main_arg2))) :
    θ_run defs (onTc (τ := τ) (main (F := Ideal))) ⟨m, fun _ => 0, ρ⟩ fun r => ∀ c : Dev nD,
      r.2.mem ((c.tc : Thread nD τ).loc main_v83) = Cert.Spec.xOutCentred (m ((c.tc : Thread nD τ).loc main_arg0)) (m ((c.tc : Thread nD τ).loc main_arg1)) (Cert.Spec.endpoint 1 (m ((c.tc : Thread nD τ).loc main_arg2))) (Cert.Spec.endpoint 0 (m ((c.tc : Thread nD τ).loc main_arg2))) (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg13)) (m ((c.tc : Thread nD τ).loc main_arg14))
      ∧ r.2.mem ((c.tc : Thread nD τ).loc main_v103) = Cert.Spec.eOutCentred (m ((c.tc : Thread nD τ).loc main_arg0)) (m ((c.tc : Thread nD τ).loc main_arg1)) (Cert.Spec.endpoint 1 (m ((c.tc : Thread nD τ).loc main_arg2))) (Cert.Spec.endpoint 0 (m ((c.tc : Thread nD τ).loc main_arg2))) (m ((c.tc : Thread nD τ).loc main_arg7)) (m ((c.tc : Thread nD τ).loc main_arg9)) (m ((c.tc : Thread nD τ).loc main_arg11)) (m ((c.tc : Thread nD τ).loc main_arg8)) (m ((c.tc : Thread nD τ).loc main_arg10)) (m ((c.tc : Thread nD τ).loc main_arg12)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
    refine ⟨(h c _).trans (results_of _ (hr c)).1, (h c _).trans (results_of _ (hr c)).2, ?_⟩
    and_intros <;> exact (h c _).trans (ops_keeps _ _ (by decide))) (run_all m ρ)

end Cert.ReferenceIdeal.Hand

end
-- ==== Proof.PreFacts.lean ====
/-
  The precondition, one truth word, read back: each real array has only real entries (its absolute values lie below
  +∞) and each endpoint index, read signed, lies in [0, 50000).
-/
import proofs.«418560_j60430189855387_3_alg».proof.Pre_finite_inputs
import proofs.«418560_j60430189855387_3_alg».proof.Proof.Gen.Pre_finite_inputs
import proofs.«418560_j60430189855387_3_alg».proof.Proof.Spec
import Idealize.ShloMosaic.Lib.ReduceAll
import Idealize.ShloMosaic.Lib.Affine
import Idealize.ShloMosaic.Lib.ValueIdx

noncomputable section

namespace Cert.PreFacts

open Idealize.ShloMosaic Idealize.ShloMosaic.ValueIdx
open Cert.Pre_finite_inputs

instance : Subsingleton S_.Idx := ⟨fun a b => funext fun d => d.elim0⟩

theorem inf_word : Ideal.ofBits .f32 0x7F800000#32 = (⊤ : EReal) := by simp [Ideal.ofBits, Ideal.ieee]

/-- If max(x, −x) < +∞ then x is neither infinity. -/
theorem real_of_abs_lt_inf {x : EReal}
    (h : Ideal.cmp .olt (max x (-x)) (Ideal.ofBits .f32 0x7F800000#32) = 1#1) : x ≠ ⊤ ∧ x ≠ ⊥ := by
  rw [inf_word] at h
  induction x using EReal.rec with
  | bot => exact absurd h (by simp [Ideal.cmp])
  | coe r => exact ⟨EReal.coe_ne_top r, EReal.coe_ne_bot r⟩
  | top => exact absurd h (by simp [Ideal.cmp])

theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) : Cert.Spec.Finite a :=
  fun i => real_of_abs_lt_inf (Host.reduce_andi_all _ _ hr hu ix0 e i)

theorem inRange_of_all {axes : List (Fin S2x800000.rank)} (ei : IVec S2x800000 32)
    (hb : S_.BroadcastsInDim S2x800000 (![] : Fin 0 → Fin S2x800000.rank)) (hr : S2x800000.ReducesTo axes S_)
    (hu : 0 < S_.numel)
    (e : Host.reduce IntOp.andi
          (andi (cmpi .sge ei (broadcastInDim S2x800000 ![] hb (constantI S_ 32 0#32)))
                (cmpi .slt ei (broadcastInDim S2x800000 ![] hb (constantI S_ 32 50000#32))))
          (constantI S_ 1 1#1) hr hu ix0 = 1#1) : Cert.Spec.InRange ei := by
  intro i
  have hi : IntOp.andi (IntOp.cmpi .sge (ei i) 0#32) (IntOp.cmpi .slt (ei i) 50000#32) = 1#1 :=
    Host.reduce_andi_all _ _ hr hu ix0 e i
  obtain ⟨h0, h1⟩ := IntOp.andi_eq_one.1 hi
  have h0' := IntOp.cmpi_sge.1 h0
  have h1' := IntOp.cmpi_slt.1 h1
  rw [show (0#32 : BitVec 32).toInt = 0 by decide] at h0'
  rw [show (50000#32 : BitVec 32).toInt = 50000 by decide] at h1'
  exact ⟨h0', h1'⟩

/-- A conjunction that is 1 has every conjunct 1, and a conjunction over all entries a 1 at each entry. -/
theorem facts_of_pre (a0 : FVec Ideal S50000x128 .f32) (a1 : FVec Ideal S800000x128 .f32) (a2 : IVec S2x800000 32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128 .f32) (a14 : FVec Ideal S128 .f32) (a15 : FVec Ideal S128 .f32) (a16 : FVec Ideal S128 .f32)
    (h : Cert.Pre_finite_inputs.fn (F := Ideal) a0 a1 a2 a3 a4 a5 a6 a7 a8 a9 a10 a11 a12 a13 a14 a15 a16 = fun _ => 1#1) :
    Cert.Spec.Finite a0 ∧ Cert.Spec.Finite a1 ∧ Cert.Spec.InRange a2 ∧ Cert.Spec.Finite a3 ∧ Cert.Spec.Finite a4 ∧ Cert.Spec.Finite a5 ∧ Cert.Spec.Finite a6 ∧ Cert.Spec.Finite a7 ∧ Cert.Spec.Finite a8 ∧ Cert.Spec.Finite a9 ∧ Cert.Spec.Finite a10 ∧ Cert.Spec.Finite a11 ∧ Cert.Spec.Finite a12 ∧ Cert.Spec.Finite a13 ∧ Cert.Spec.Finite a14 ∧ Cert.Spec.Finite a15 ∧ Cert.Spec.Finite a16 := by
  have h0 := congrFun h ix0
  dsimp only [Cert.Pre_finite_inputs.fn, fn_part1, fn_part2, fn_part3, fn_part4, fn_part5] at h0
  have h1 : ∀ (x y : IVec S_ 1), andi x y ix0 = 1#1 → x ix0 = 1#1 ∧ y ix0 = 1#1 :=
    fun x y e => IntOp.andi_eq_one.1 e
  obtain ⟨c0, ha2⟩ := h1 _ _ h0
  obtain ⟨c1, ha16⟩ := h1 _ _ c0
  obtain ⟨c2, ha15⟩ := h1 _ _ c1
  obtain ⟨c3, ha14⟩ := h1 _ _ c2
  obtain ⟨c4, ha13⟩ := h1 _ _ c3
  obtain ⟨c5, ha12⟩ := h1 _ _ c4
  obtain ⟨c6, ha11⟩ := h1 _ _ c5
  obtain ⟨c7, ha10⟩ := h1 _ _ c6
  obtain ⟨c8, ha9⟩ := h1 _ _ c7
  obtain ⟨c9, ha8⟩ := h1 _ _ c8
  obtain ⟨c10, ha7⟩ := h1 _ _ c9
  obtain ⟨c11, ha6⟩ := h1 _ _ c10
  obtain ⟨c12, ha5⟩ := h1 _ _ c11
  obtain ⟨c13, ha4⟩ := h1 _ _ c12
  obtain ⟨c14, ha3⟩ := h1 _ _ c13
  obtain ⟨ha0, ha1⟩ := h1 _ _ c14
  exact ⟨finite_of_all a0 _ _ _ ha0,
    finite_of_all a1 _ _ _ ha1,
    inRange_of_all a2 _ _ _ ha2,
    finite_of_all a3 _ _ _ ha3,
    finite_of_all a4 _ _ _ ha4,
    finite_of_all a5 _ _ _ ha5,
    finite_of_all a6 _ _ _ ha6,
    finite_of_all a7 _ _ _ ha7,
    finite_of_all a8 _ _ _ ha8,
    finite_of_all a9 _ _ _ ha9,
    finite_of_all a10 _ _ _ ha10,
    finite_of_all a11 _ _ _ ha11,
    finite_of_all a12 _ _ _ ha12,
    finite_of_all a13 _ _ _ ha13,
    finite_of_all a14 _ _ _ ha14,
    finite_of_all a15 _ _ _ ha15,
    finite_of_all a16 _ _ _ ha16⟩

end Cert.PreFacts

end
-- ==== Proof.SpecFinite.lean ====
/-
  Real entries through the layer: sums and products of reals are real, the gate of anything lies in [0, 1], and a
  quotient by a positive real is real; so every intermediate matrix of the layer is real once the inputs are.
-/
import proofs.«418560_j60430189855387_3_alg».proof.Proof.Spec
import Mathlib.Data.EReal.Basic
import Mathlib.Data.EReal.Operations
import Mathlib.Data.EReal.Inv
import Mathlib.Algebra.BigOperators.Group.Finset.Basic
import Mathlib.Algebra.Order.BigOperators.Group.Finset

noncomputable section

namespace Cert.Spec

open Idealize.ShloMosaic Idealize.ShloMosaic.ValueIdx

def IsReal (a : EReal) : Prop := a ≠ ⊤ ∧ a ≠ ⊥

theorem isReal_coe (r : ℝ) : IsReal (r : EReal) := ⟨EReal.coe_ne_top r, EReal.coe_ne_bot r⟩

theorem isReal_iff {a : EReal} : IsReal a ↔ ∃ r : ℝ, a = (r : EReal) := by
  constructor
  · rintro ⟨h1, h2⟩
    induction a using EReal.rec with
    | bot => exact absurd rfl h2
    | coe r => exact ⟨r, rfl⟩
    | top => exact absurd rfl h1
  · rintro ⟨r, rfl⟩; exact isReal_coe r

theorem isReal_zero : IsReal (0 : EReal) := by simpa using isReal_coe 0

theorem isReal_add {a b : EReal} (ha : IsReal a) (hb : IsReal b) : IsReal (a + b) := by
  obtain ⟨r, rfl⟩ := isReal_iff.1 ha
  obtain ⟨s, rfl⟩ := isReal_iff.1 hb
  rw [← EReal.coe_add]; exact isReal_coe _

theorem isReal_mul {a b : EReal} (ha : IsReal a) (hb : IsReal b) : IsReal (a * b) := by
  obtain ⟨r, rfl⟩ := isReal_iff.1 ha
  obtain ⟨s, rfl⟩ := isReal_iff.1 hb
  rw [← EReal.coe_mul]; exact isReal_coe _

theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact isReal_add (hf a (Finset.mem_insert_self a s)) (ih fun i hi => hf i (Finset.mem_insert_of_mem hi))

/-- The gate is 0 at −∞, 1 at +∞ and 1 / (1 + e^(−r)) at a real r. -/
theorem isReal_logistic (v : EReal) : IsReal (Ideal.logistic v) := by
  induction v using EReal.rec with
  | bot => rw [Ideal.logistic_bot]; exact isReal_zero
  | coe r => rw [Ideal.logistic_coe]; exact isReal_coe _
  | top => rw [Ideal.logistic_top]; simpa using isReal_coe 1

theorem logistic_nonneg (v : EReal) : 0 ≤ Ideal.logistic v := by
  induction v using EReal.rec with
  | bot => rw [Ideal.logistic_bot]
  | coe r =>
    rw [Ideal.logistic_coe]
    have : (0 : ℝ) ≤ (1 + Real.exp (-r))⁻¹ := by positivity
    exact_mod_cast this
  | top => rw [Ideal.logistic_top]; exact zero_le_one

theorem isReal_div_coe {a : EReal} (ha : IsReal a) {y : ℝ} (hy : y ≠ 0) : IsReal (Ideal.div a (y : EReal)) := by
  rw [Ideal.div_coe hy]; exact isReal_mul ha (isReal_coe _)

/-- The added constant is the positive real 8796093 · 2^(−43). -/
theorem aggEps_pos : ∃ r : ℝ, 0 < r ∧ aggEps = (r : EReal) := by
  refine ⟨8796093 * (2 : ℝ) ^ (-43 : ℤ), by positivity, ?_⟩
  simp [aggEps, Ideal.ofBits, Ideal.ieee, -EReal.coe_mul]

theorem nNodes_eq : nNodes = ((50000 : ℝ) : EReal) := by
  simp [nNodes, Ideal.ofBits, Ideal.ieee, -EReal.coe_mul]
  norm_num

theorem nEdges_eq : nEdges = ((800000 : ℝ) : EReal) := by
  simp [nEdges, Ideal.ofBits, Ideal.ieee, -EReal.coe_mul]
  norm_num

theorem finite_lin {n : ℕ} {x : A2 n 128} {W : A2 128 128} {b : A1 128} (hx : Finite x) (hW : Finite W) (hb : Finite b) :
    Finite (lin x W b) := fun i =>
  isReal_add (isReal_sum _ _ fun k _ => isReal_mul (hx _) (hW _)) (hb _)

theorem finite_take {T : A2 50000 128} (hT : Finite T) (idx : I2 800000 1) : Finite (take T idx) := fun j =>
  hT (rowsOf.operandIdx j idx)

theorem finite_msg {a b c : A2 800000 128} (ha : Finite a) (hb : Finite b) (hc : Finite c) : Finite (msg a b c) := fun i =>
  isReal_add (isReal_add (ha i) (hb i)) (hc i)

theorem finite_gate (v : A2 800000 128) : Finite (gate v) := fun i => isReal_logistic (v i)

theorem gate_nonneg (v : A2 800000 128) (i : (S2 800000 128).Idx) : 0 ≤ gate v i := logistic_nonneg (v i)

theorem finite_gated {s t : A2 800000 128} (hs : Finite s) (ht : Finite t) : Finite (gated s t) := fun i =>
  isReal_mul (hs i) (ht i)

theorem finite_accum (idx : I2 800000 1) {u : A2 800000 128} (hu : Finite u) : Finite (accum idx u) := fun i =>
  isReal_add isReal_zero (isReal_sum _ _ fun j _ => hu j)

theorem accum_nonneg (idx : I2 800000 1) {u : A2 800000 128} (hu : ∀ i, 0 ≤ u i) (i : (S2 50000 128).Idx) :
    0 ≤ accum idx u i :=
  add_nonneg le_rfl (Finset.sum_nonneg fun j _ => hu j)

/-- The denominator, a nonnegative real plus a positive one, is a nonzero real. -/
theorem finite_aggr {num den : A2 50000 128} (hn : Finite num) (hd : Finite den) (hpos : ∀ i, 0 ≤ den i) :
    Finite (aggr num den) := fun i => by
  obtain ⟨r, hr, hε⟩ := aggEps_pos
  obtain ⟨d, hdi⟩ := isReal_iff.1 (hd i)
  have hd0 : 0 ≤ d := by
    have := hpos i
    rw [hdi] at this
    exact_mod_cast this
  show IsReal (Ideal.div (num i) (den i + aggEps))
  rw [hdi, hε, ← EReal.coe_add]
  exact isReal_div_coe (hn i) (by positivity)

theorem finite_upd {a b : A2 50000 128} (ha : Finite a) (hb : Finite b) : Finite (upd a b) := fun i =>
  isReal_add (ha i) (hb i)

section Layer
variable {x : A2 50000 128} {e : A2 800000 128} (dst src : I2 800000 1)
  {WA WB WC WD WE : A2 128 128} {bA bB bC bD bE : A1 128}

theorem finite_eij (fx : Finite x) (fe : Finite e) (hWC : Finite WC) (hWD : Finite WD) (hWE : Finite WE)
    (hbC : Finite bC) (hbD : Finite bD) (hbE : Finite bE) : Finite (eij x e dst src WC WD WE bC bD bE) :=
  finite_msg (finite_take (finite_lin fx hWD hbD) dst) (finite_take (finite_lin fx hWE hbE) src) (finite_lin fe hWC hbC)

theorem finite_hx (fx : Finite x) (fe : Finite e) (hWA : Finite WA) (hWB : Finite WB) (hWC : Finite WC)
    (hWD : Finite WD) (hWE : Finite WE) (hbA : Finite bA) (hbB : Finite bB) (hbC : Finite bC) (hbD : Finite bD)
    (hbE : Finite bE) : Finite (hx x e dst src WA WB WC WD WE bA bB bC bD bE) :=
  finite_upd (finite_lin fx hWA hbA)
    (finite_aggr (finite_accum dst (finite_gated (finite_gate _) (finite_take (finite_lin fx hWB hbB) src)))
      (finite_accum dst (finite_gate _)) (accum_nonneg dst (gate_nonneg _)))
end Layer

end Cert.Spec

end
-- ==== Proof.SpecAlgebra.lean ====
/-
  The variance identity: for real entries and a divisor equal to the number of rows, the mean of the squares less the
  squared mean is the mean of the squared deviations. Proved over the reals and coerced; hence the two arrangements of
  each normalised output of the layer agree.
-/
import proofs.«418560_j60430189855387_3_alg».proof.Proof.Spec
import proofs.«418560_j60430189855387_3_alg».proof.Proof.SpecFinite
import Mathlib.Data.EReal.Basic
import Mathlib.Data.EReal.Operations
import Mathlib.Algebra.BigOperators.Group.Finset.Basic
import Mathlib.Algebra.BigOperators.Ring.Finset
import Mathlib.Data.Fintype.BigOperators
import Mathlib.Tactic.Ring
import Mathlib.Tactic.LinearCombination
import Mathlib.Tactic.FieldSimp
import Mathlib.Tactic.NormNum

noncomputable section

namespace Cert.Spec

open Idealize.ShloMosaic Idealize.ShloMosaic.ValueIdx

/-- With c · (number of terms) = 1: expand the squared deviation and sum. -/
theorem real_variance {ι : Type*} [Fintype ι] (f : ι → ℝ) (c : ℝ) (hc : (Fintype.card ι : ℝ) * c = 1) :
    (∑ p, f p * f p) * c - ((∑ p, f p) * c) * ((∑ p, f p) * c)
      = (∑ p, (f p - (∑ q, f q) * c) * (f p - (∑ q, f q) * c)) * c := by
  set S : ℝ := ∑ q, f q with hS
  set Q : ℝ := ∑ p, f p * f p with hQ
  have hexp : ∑ p, (f p - S * c) * (f p - S * c) = Q - 2 * (S * c) * S + (Fintype.card ι : ℝ) * ((S * c) * (S * c)) := by
    have h1 : ∀ p, (f p - S * c) * (f p - S * c) = f p * f p - 2 * (S * c) * f p + (S * c) * (S * c) := fun p => by ring
    rw [Finset.sum_congr rfl fun p _ => h1 p, Finset.sum_add_distrib, Finset.sum_sub_distrib, ← Finset.mul_sum,
      Finset.sum_const, Finset.card_univ, nsmul_eq_mul]
  rw [hexp]
  linear_combination (-(S * c * (S * c))) * hc

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real entries: both sides are coercions of real expressions, equal by `real_variance` with c = 1 / n. -/
theorem colVar_eq {n : ℕ} (hn : n ≠ 0) {h : A2 n 128} (hf : Finite h) :
    colVarMoments ((n : ℝ) : EReal) h = colVarCentred ((n : ℝ) : EReal) h := by
  have hn' : (n : ℝ) ≠ 0 := by exact_mod_cast hn
  choose f hfe using fun i => isReal_iff.1 (hf i)
  obtain rfl : h = fun i => (f i : EReal) := funext hfe
  funext j
  have hmean : ∀ j' : (S1 128).Idx, colMean ((n : ℝ) : EReal) (fun i => (f i : EReal)) j'
      = (((∑ p : Fin n, f (ix2 p (j' 0))) * (1 / (n : ℝ)) : ℝ) : EReal) := fun j' => by
    show Ideal.div (∑ p : Fin n, (f (ix2 p (j' 0)) : EReal)) ((n : ℝ) : EReal) = _
    rw [Ideal.div_coe hn', ← coe_sum, ← EReal.coe_mul]
  show Ideal.div (∑ p : Fin n, (f (ix2 p (j 0)) : EReal) * (f (ix2 p (j 0)) : EReal)) ((n : ℝ) : EReal)
      - colMean ((n : ℝ) : EReal) (fun i => (f i : EReal)) j * colMean ((n : ℝ) : EReal) (fun i => (f i : EReal)) j
    = Ideal.div (∑ p : Fin n, ((f (ix2 p (j 0)) : EReal) - colMean ((n : ℝ) : EReal) (fun i => (f i : EReal)) (ix1 (j 0)))
        * ((f (ix2 p (j 0)) : EReal) - colMean ((n : ℝ) : EReal) (fun i => (f i : EReal)) (ix1 (j 0)))) ((n : ℝ) : EReal)
  rw [hmean j, hmean (ix1 (j 0)), Ideal.div_coe hn', Ideal.div_coe hn']
  simp only [← EReal.coe_mul, ← EReal.coe_sub, ← coe_sum]
  congr 1
  refine real_variance (fun p : Fin n => f (ix2 p (j 0))) (1 / (n : ℝ)) ?_
  rw [Fintype.card_fin]; field_simp

theorem colVar_nodes {h : A2 50000 128} (hf : Finite h) : colVarMoments nNodes h = colVarCentred nNodes h := by
  rw [nNodes_eq, show (50000 : ℝ) = ((50000 : ℕ) : ℝ) by norm_num]
  exact colVar_eq (by norm_num) hf

theorem colVar_edges {h : A2 800000 128} (hf : Finite h) : colVarMoments nEdges h = colVarCentred nEdges h := by
  rw [nEdges_eq, show (800000 : ℝ) = ((800000 : ℕ) : ℝ) by norm_num]
  exact colVar_eq (by norm_num) hf

section Layer
variable {x : A2 50000 128} {e : A2 800000 128} (dst src : I2 800000 1)
  {WA WB WC WD WE : A2 128 128} {bA bB bC bD bE : A1 128} (gx bx ge be : A1 128)

theorem xOut_eq (fx : Finite x) (fe : Finite e) (hWA : Finite WA) (hWB : Finite WB) (hWC : Finite WC)
    (hWD : Finite WD) (hWE : Finite WE) (hbA : Finite bA) (hbB : Finite bB) (hbC : Finite bC) (hbD : Finite bD)
    (hbE : Finite bE) :
    xOutMoments x e dst src WA WB WC WD WE bA bB bC bD bE gx bx
      = xOutCentred x e dst src WA WB WC WD WE bA bB bC bD bE gx bx :=
  congrArg (fun v => normRelu (hx x e dst src WA WB WC WD WE bA bB bC bD bE)
      (colMean nNodes (hx x e dst src WA WB WC WD WE bA bB bC bD bE)) v gx bx)
    (colVar_nodes (finite_hx dst src fx fe hWA hWB hWC hWD hWE hbA hbB hbC hbD hbE))

theorem eOut_eq (fx : Finite x) (fe : Finite e) (hWC : Finite WC) (hWD : Finite WD) (hWE : Finite WE)
    (hbC : Finite bC) (hbD : Finite bD) (hbE : Finite bE) :
    eOutMoments x e dst src WC WD WE bC bD bE ge be = eOutCentred x e dst src WC WD WE bC bD bE ge be :=
  congrArg (fun v => normRelu (eij x e dst src WC WD WE bC bD bE)
      (colMean nEdges (eij x e dst src WC WD WE bC bD bE)) v ge be)
    (colVar_edges (finite_eij dst src fx fe hWC hWD hWE hbC hbD hbE))
end Layer

end Cert.Spec

end
-- ==== Proof.lean ====
/-
  One layer of a gated graph network, a blocked program against a plain one. The blocked program takes each column
  variance as the mean of the squares less the squared mean, the plain one as the mean of the squared deviations; on
  matrices of real entries, which real inputs with endpoint indices naming nodes give, the two agree.
-/
import proofs.«418560_j60430189855387_3_alg».proof.Defs
import proofs.«418560_j60430189855387_3_alg».proof.Proof.Gen.Kernel
import proofs.«418560_j60430189855387_3_alg».proof.Proof.Gen.KernelIdeal
import proofs.«418560_j60430189855387_3_alg».proof.Proof.Gen.ReferenceIdeal
import proofs.«418560_j60430189855387_3_alg».proof.Proof.Gen.Pre_finite_inputs
import proofs.«418560_j60430189855387_3_alg».proof.Proof.K.Run
import proofs.«418560_j60430189855387_3_alg».proof.Proof.KI.Value
import proofs.«418560_j60430189855387_3_alg».proof.Proof.Ref.Value
import proofs.«418560_j60430189855387_3_alg».proof.Proof.PreFacts
import proofs.«418560_j60430189855387_3_alg».proof.Proof.SpecAlgebra

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- Both runs end at the layer's two outputs, one with each arrangement of the variance; the arguments agree and are real. -/
theorem algebraic : Cert.algebraic_KernelIdeal_ReferenceIdeal := by
  intro m ρ m' ρ' hpre hagree
  have hf := fun c => Cert.PreFacts.facts_of_pre _ _ _ _ _ _ _ _ _ _ _ _ _ _ _ _ _ (hpre c)
  refine ⟨_, _, (θ_run (Cert.KernelIdeal.defs (F := Ideal)) _ _).mono
      (fun r h c => ⟨(h c).1.trans (Cert.KernelIdeal.Hand.results m c).1,
        (h c).2.1.trans (Cert.KernelIdeal.Hand.results m c).2, (h c).2.2⟩)
      (Cert.KernelIdeal.Hand.run_results m ρ),
    (θ_run (Cert.ReferenceIdeal.defs (F := Ideal)) _ _).mono (fun r h c => ?_)
      (Cert.ReferenceIdeal.Hand.run m' ρ' fun c => (hagree c).2.2.1 ▸ (hf c).2.2.1)⟩
  obtain ⟨f0, f1, -, f3, f4, f5, f6, f7, f8, f9, f10, f11, f12, -⟩ := hf c
  obtain ⟨a0, a1, a2, a3, a4, a5, a6, a7, a8, a9, a10, a11, a12, a13, a14, a15, a16⟩ := hagree c
  refine ⟨(h c).1.trans ?_, (h c).2.1.trans ?_, (h c).2.2⟩
  · rw [a0, a1, a2, a3, a4, a5, a6, a7, a8, a9, a10, a11, a12, a13, a14]
    exact (Cert.Spec.xOut_eq _ _ _ _ f0 f1 f3 f5 f7 f9 f11 f4 f6 f8 f10 f12).symm
  · rw [a0, a1, a2, a7, a8, a9, a10, a11, a12, a15, a16]
    exact (Cert.Spec.eOut_eq _ _ _ _ f0 f1 f7 f9 f11 f8 f10 f12).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
